-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v24)) (v6 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_v24) = v5 c
          ∧ r.2.mem ((c.tc : Thread Cert.KernelIdeal.nD Cert.KernelIdeal.τ).loc Cert.KernelIdeal.main_v34) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_v26) = v5 c
          ∧ r.2.mem ((c.tc : Thread Cert.ReferenceIdeal.nD Cert.ReferenceIdeal.τ).loc Cert.ReferenceIdeal.main_v34) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x512 : Shape := ⟨3, ![8, 128, 512]⟩
abbrev S8 : Shape := ⟨1, ![8]⟩
abbrev S25000x512 : Shape := ⟨2, ![25000, 512]⟩
abbrev S6x2500x512 : Shape := ⟨3, ![6, 2500, 512]⟩
abbrev S5x512 : Shape := ⟨2, ![5, 512]⟩
abbrev S5 : Shape := ⟨1, ![5]⟩
abbrev S_ : Shape := ⟨0, ![]⟩

class Facts : Prop where
  bcast_S_S8x128x512 : S_.BroadcastsInDim S8x128x512 (![] : Fin 0 → Fin S8x128x512.rank)
  reducesTo_S8x128x512_S_d0_1_2 : S8x128x512.ReducesTo [0, 1, 2] S_
  h_S_ : 0 < S_.numel
  bcast_S_S25000x512 : S_.BroadcastsInDim S25000x512 (![] : Fin 0 → Fin S25000x512.rank)
  reducesTo_S25000x512_S_d0_1 : S25000x512.ReducesTo [0, 1] S_
  bcast_S_S6x2500x512 : S_.BroadcastsInDim S6x2500x512 (![] : Fin 0 → Fin S6x2500x512.rank)
  reducesTo_S6x2500x512_S_d0_1_2 : S6x2500x512.ReducesTo [0, 1, 2] S_
  bcast_S_S5x512 : S_.BroadcastsInDim S5x512 (![] : Fin 0 → Fin S5x512.rank)
  reducesTo_S5x512_S_d0_1 : S5x512.ReducesTo [0, 1] S_
  bcast_S_S5 : S_.BroadcastsInDim S5 (![] : Fin 0 → Fin S5.rank)
  reducesTo_S5_S_d0 : S5.ReducesTo [0] S_
  bcast_S_S8 : S_.BroadcastsInDim S8 (![] : Fin 0 → Fin S8.rank)
  reducesTo_S8_S_d0 : S8.ReducesTo [0] S_

variable [Facts]

def fn_part2 {F : FTy → Type} [FloatOps F] (main_arg1 : IVec S8 32) (main_arg9 : FVec F S5 .f32) (main_v33 : IVec S_ 1) : IVec S_ 1 :=
  let main_v34 : FVec F S5 .f32 := Host.absf main_arg9
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_c_14 : IVec S_ 32 := constantI S_ 32 0#32
  let main_v39 : IVec S8 32 := broadcastInDim S8 ![] bcast_S_S8 main_c_14
  let main_v40 : IVec S8 1 := cmpi .sge main_arg1 main_v39
  let main_c_15 : IVec S_ 32 := constantI S_ 32 6#32
  let main_v41 : IVec S8 32 := broadcastInDim S8 ![] bcast_S_S8 main_c_15
  let main_v42 : IVec S8 1 := cmpi .slt main_arg1 main_v41
  let main_v43 : IVec S8 1 := andi main_v40 main_v42
  let main_c_16 : IVec S_ 1 := constantI S_ 1 1#1
  let main_v44 : IVec S_ 1 := (fun x v => Host.reduce IntOp.andi x v reducesTo_S8_S_d0 h_S_) main_v43 main_c_16
  let main_v45 : IVec S_ 1 := andi main_v38 main_v44
  main_v45

def fn_part1 {F : FTy → Type} [FloatOps F] (main_arg1 : IVec S8 32) (main_arg6 : FVec F S25000x512 .f32) (main_arg7 : FVec F S25000x512 .f32) (main_arg8 : FVec F S5x512 .f32) (main_arg9 : FVec F S5 .f32) (main_v13 : IVec S_ 1) (main_v16 : IVec S25000x512 1) : IVec S_ 1 :=
  let main_c_5 : IVec S_ 1 := constantI S_ 1 1#1
  let main_v17 : IVec S_ 1 := (fun x v => Host.reduce IntOp.andi x v reducesTo_S25000x512_S_d0_1 h_S_) main_v16 main_c_5
  let main_v18 : IVec S_ 1 := andi main_v13 main_v17
  let main_v19 : FVec F S25000x512 .f32 := Host.absf main_arg6
  let main_cst_6 : FVec F S_ .f32 := constant S_ .f32 0x7F800000#32
  let main_v20 : FVec F S25000x512 .f32 := broadcastInDim S25000x512 ![] bcast_S_S25000x512 main_cst_6
  let main_v21 : IVec S25000x512 1 := cmpf .olt main_v19 main_v20
  let main_c_7 : IVec S_ 1 := constantI S_ 1 1#1
  let main_v22 : IVec S_ 1 := (fun x v => Host.reduce IntOp.andi x v reducesTo_S25000x512_S_d0_1 h_S_) main_v21 main_c_7
  let main_v23 : IVec S_ 1 := andi main_v18 main_v22
  let main_v24 : FVec F S25000x512 .f32 := Host.absf main_arg7
  let main_cst_8 : FVec F S_ .f32 := constant S_ .f32 0x7F800000#32
  let main_v25 : FVec F S25000x512 .f32 := broadcastInDim S25000x512 ![] bcast_S_S25000x512 main_cst_8
  let main_v26 : IVec S25000x512 1 := cmpf .olt main_v24 main_v25
  let main_c_9 : IVec S_ 1 := constantI S_ 1 1#1
  let main_v27 : IVec S_ 1 := (fun x v => Host.reduce IntOp.andi x v reducesTo_S25000x512_S_d0_1 h_S_) main_v26 main_c_9
  let main_v28 : IVec S_ 1 := andi main_v23 main_v27
  let main_v29 : FVec F S5x512 .f32 := Host.absf main_arg8
  let main_cst_10 : FVec F S_ .f32 := constant S_ .f32 0x7F800000#32
  let main_v30 : FVec F S5x512 .f32 := broadcastInDim S5x512 ![] bcast_S_S5x512 main_cst_10
  let main_v31 : IVec S5x512 1 := cmpf .olt main_v29 main_v30
  let main_c_11 : IVec S_ 1 := constantI S_ 1 1#1
  let main_v32 : IVec S_ 1 := (fun x v => Host.reduce IntOp.andi x v reducesTo_S5x512_S_d0_1 h_S_) main_v31 main_c_11
  let main_v33 : IVec S_ 1 := andi main_v28 main_v32
  fn_part2 (F := F) main_arg1 main_arg9 main_v33

def fn {F : FTy → Type} [FloatOps F] (main_arg0 : FVec F S8x128x512 .f32) (main_arg1 : IVec S8 32) (main_arg2 : IVec S8 32) (main_arg3 : FVec F S25000x512 .f32) (main_arg4 : FVec F S6x2500x512 .f32) (main_arg5 : FVec F S25000x512 .f32) (main_arg6 : FVec F S25000x512 .f32) (main_arg7 : FVec F S25000x512 .f32) (main_arg8 : FVec F S5x512 .f32) (main_arg9 : FVec F S5 .f32) : IVec S_ 1 :=
  let main_v0 : FVec F S8x128x512 .f32 := Host.absf main_arg0
  let main_cst : FVec F S_ .f32 := constant S_ .f32 0x7F800000#32
  let main_v1 : FVec F S8x128x512 .f32 := broadcastInDim S8x128x512 ![] bcast_S_S8x128x512 main_cst
  let main_v2 : IVec S8x128x512 1 := cmpf .olt main_v0 main_v1
  let main_c : IVec S_ 1 := constantI S_ 1 1#1
  let main_v3 : IVec S_ 1 := (fun x v => Host.reduce IntOp.andi x v reducesTo_S8x128x512_S_d0_1_2 h_S_) main_v2 main_c
  let main_v4 : FVec F S25000x512 .f32 := Host.absf main_arg3
  let main_cst_0 : FVec F S_ .f32 := constant S_ .f32 0x7F800000#32
  let main_v5 : FVec F S25000x512 .f32 := broadcastInDim S25000x512 ![] bcast_S_S25000x512 main_cst_0
  let main_v6 : IVec S25000x512 1 := cmpf .olt main_v4 main_v5
  let main_c_1 : IVec S_ 1 := constantI S_ 1 1#1
  let main_v7 : IVec S_ 1 := (fun x v => Host.reduce IntOp.andi x v reducesTo_S25000x512_S_d0_1 h_S_) main_v6 main_c_1
  let main_v8 : IVec S_ 1 := andi main_v3 main_v7
  let main_v9 : FVec F S6x2500x512 .f32 := Host.absf main_arg4
  let main_cst_2 : FVec F S_ .f32 := constant S_ .f32 0x7F800000#32
  let main_v10 : FVec F S6x2500x512 .f32 := broadcastInDim S6x2500x512 ![] bcast_S_S6x2500x512 main_cst_2
  let main_v11 : IVec S6x2500x512 1 := cmpf .olt main_v9 main_v10
  let main_c_3 : IVec S_ 1 := constantI S_ 1 1#1
  let main_v12 : IVec S_ 1 := (fun x v => Host.reduce IntOp.andi x v reducesTo_S6x2500x512_S_d0_1_2 h_S_) main_v11 main_c_3
  let main_v13 : IVec S_ 1 := andi main_v8 main_v12
  let main_v14 : FVec F S25000x512 .f32 := Host.absf main_arg5
  let main_cst_4 : FVec F S_ .f32 := constant S_ .f32 0x7F800000#32
  let main_v15 : FVec F S25000x512 .f32 := broadcastInDim S25000x512 ![] bcast_S_S25000x512 main_cst_4
  let main_v16 : IVec S25000x512 1 := cmpf .olt main_v14 main_v15
  fn_part1 (F := F) main_arg1 main_arg6 main_arg7 main_arg8 main_arg9 main_v13 main_v16
-- ==== Kernel.lean ====
abbrev S8x128x512 : Shape := ⟨3, ![8, 128, 512]⟩
abbrev S8 : Shape := ⟨1, ![8]⟩
abbrev S25000x512 : Shape := ⟨2, ![25000, 512]⟩
abbrev S6x2500x512 : Shape := ⟨3, ![6, 2500, 512]⟩
abbrev S5x512 : Shape := ⟨2, ![5, 512]⟩
abbrev S5 : Shape := ⟨1, ![5]⟩
abbrev S1024x512 : Shape := ⟨2, ![1024, 512]⟩
abbrev S_ : Shape := ⟨0, ![]⟩
abbrev S8x128 : Shape := ⟨2, ![8, 128]⟩
abbrev S1024 : Shape := ⟨1, ![1024]⟩
abbrev S1024x1 : Shape := ⟨2, ![1024, 1]⟩
abbrev S1024x25000 : Shape := ⟨2, ![1024, 25000]⟩
abbrev S1280x512 : Shape := ⟨2, ![1280, 512]⟩
abbrev S1024x1280 : Shape := ⟨2, ![1024, 1280]⟩
abbrev S8x128x25000 : Shape := ⟨3, ![8, 128, 25000]⟩
abbrev S8x128x2500 : Shape := ⟨3, ![8, 128, 2500]⟩
abbrev S1x128x512 : Shape := ⟨3, ![1, 128, 512]⟩
abbrev S1x2500x512 : Shape := ⟨3, ![1, 2500, 512]⟩
abbrev S1 : Shape := ⟨1, ![1]⟩
abbrev S1x128x2500 : Shape := ⟨3, ![1, 128, 2500]⟩
abbrev S128x512 : Shape := ⟨2, ![128, 512]⟩
abbrev S2500x512 : Shape := ⟨2, ![2500, 512]⟩
abbrev S128x2500 : Shape := ⟨2, ![128, 2500]⟩
abbrev S8x128x27500 : Shape := ⟨3, ![8, 128, 27500]⟩
abbrev S8x512 : Shape := ⟨2, ![8, 512]⟩
abbrev S512x5 : Shape := ⟨2, ![512, 5]⟩
abbrev S8x5 : Shape := ⟨2, ![8, 5]⟩
abbrev S1x5 : Shape := ⟨2, ![1, 5]⟩

abbrev nBuf : Space → Nat
  | .hbm => 49
  | .vmem => 30
  | .smem => 1
  | _ => 0

abbrev bufTy : (tb : Table) → Fin (tcTables nBuf tb) → BufTy
  | .hbm, ⟨0, _⟩ => ⟨S8x128x512, .f32⟩
  | .hbm, ⟨1, _⟩ => ⟨S8, .i32⟩
  | .hbm, ⟨2, _⟩ => ⟨S25000x512, .f32⟩
  | .hbm, ⟨3, _⟩ => ⟨S6x2500x512, .f32⟩
  | .hbm, ⟨4, _⟩ => ⟨S25000x512, .f32⟩
  | .hbm, ⟨5, _⟩ => ⟨S25000x512, .f32⟩
  | .hbm, ⟨6, _⟩ => ⟨S25000x512, .f32⟩
  | .hbm, ⟨7, _⟩ => ⟨S5x512, .f32⟩
  | .hbm, ⟨8, _⟩ => ⟨S5, .f32⟩
  | .hbm, ⟨9, _⟩ => ⟨S1024x512, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S8, .f32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8x128, .f32⟩
  | .hbm, ⟨21, _⟩ => ⟨S1024, .f32⟩
  | .hbm, ⟨22, _⟩ => ⟨S1024x1, .f32⟩
  | .hbm, ⟨23, _⟩ => ⟨S8x128, .f32⟩
  | .hbm, ⟨24, _⟩ => ⟨S1024, .f32⟩
  | .hbm, ⟨25, _⟩ => ⟨S1024x1, .f32⟩
  | .hbm, ⟨26, _⟩ => ⟨S8x128, .f32⟩
  | .hbm, ⟨27, _⟩ => ⟨S1024, .f32⟩
  | .hbm, ⟨28, _⟩ => ⟨S1024x1, .f32⟩
  | .hbm, ⟨29, _⟩ => ⟨S1024x25000, .f32⟩
  | .hbm, ⟨30, _⟩ => ⟨S8x128x25000, .f32⟩
  | .hbm, ⟨31, _⟩ => ⟨S1024x25000, .f32⟩
  | .hbm, ⟨32, _⟩ => ⟨S8x128x25000, .f32⟩
  | .hbm, ⟨33, _⟩ => ⟨S1024x25000, .f32⟩
  | .hbm, ⟨34, _⟩ => ⟨S8x128x25000, .f32⟩
  | .hbm, ⟨35, _⟩ => ⟨S1024x25000, .f32⟩
  | .hbm, ⟨36, _⟩ => ⟨S8x128x25000, .f32⟩
  | .hbm, ⟨37, _⟩ => ⟨S8x128x2500, .f32⟩
  | .hbm, ⟨38, _⟩ => ⟨S8x128x27500, .f32⟩
  | .hbm, ⟨39, _⟩ => ⟨S_, .f32⟩
  | .hbm, ⟨40, _⟩ => ⟨S8x512, .f32⟩
  | .hbm, ⟨41, _⟩ => ⟨S_, .f32⟩
  | .hbm, ⟨42, _⟩ => ⟨S8x512, .f32⟩
  | .hbm, ⟨43, _⟩ => ⟨S8x512, .f32⟩
  | .hbm, ⟨44, _⟩ => ⟨S512x5, .f32⟩
  | .hbm, ⟨45, _⟩ => ⟨S8x5, .f32⟩
  | .hbm, ⟨46, _⟩ => ⟨S1x5, .f32⟩
  | .hbm, ⟨47, _⟩ => ⟨S8x5, .f32⟩
  | .hbm, ⟨48, _⟩ => ⟨S8x5, .f32⟩
  | .local _ .vmem, ⟨0, _⟩ => ⟨S1024x512, .f32⟩
  | .local _ .vmem, ⟨1, _⟩ => ⟨S1024x1, .f32⟩
  | .local _ .vmem, ⟨2, _⟩ => ⟨S1280x512, .f32⟩
  | .local _ .vmem, ⟨3, _⟩ => ⟨S1280x512, .f32⟩
  | .local _ .vmem, ⟨4, _⟩ => ⟨S1024x1280, .f32⟩
  | .local _ .vmem, ⟨5, _⟩ => ⟨S1024x1280, .f32⟩
  | .local _ .vmem, ⟨6, _⟩ => ⟨S1024x512, .f32⟩
  | .local _ .vmem, ⟨7, _⟩ => ⟨S1024x1, .f32⟩
  | .local _ .vmem, ⟨8, _⟩ => ⟨S1280x512, .f32⟩
  | .local _ .vmem, ⟨9, _⟩ => ⟨S1280x512, .f32⟩
  | .local _ .vmem, ⟨10, _⟩ => ⟨S1024x1280, .f32⟩
  | .local _ .vmem, ⟨11, _⟩ => ⟨S1024x1280, .f32⟩
  | .local _ .vmem, ⟨12, _⟩ => ⟨S1024x512, .f32⟩
  | .local _ .vmem, ⟨13, _⟩ => ⟨S1024x1, .f32⟩
  | .local _ .vmem, ⟨14, _⟩ => ⟨S1280x512, .f32⟩
  | .local _ .vmem, ⟨15, _⟩ => ⟨S1280x512, .f32⟩
  | .local _ .vmem, ⟨16, _⟩ => ⟨S1024x1280, .f32⟩
  | .local _ .vmem, ⟨17, _⟩ => ⟨S1024x1280, .f32⟩
  | .local _ .vmem, ⟨18, _⟩ => ⟨S1024x512, .f32⟩
  | .local _ .vmem, ⟨19, _⟩ => ⟨S1024x1, .f32⟩
  | .local _ .vmem, ⟨20, _⟩ => ⟨S1280x512, .f32⟩
  | .local _ .vmem, ⟨21, _⟩ => ⟨S1280x512, .f32⟩
  | .local _ .vmem, ⟨22, _⟩ => ⟨S1024x1280, .f32⟩
  | .local _ .vmem, ⟨23, _⟩ => ⟨S1024x1280, .f32⟩
  | .local _ .vmem, ⟨24, _⟩ => ⟨S1x128x512, .f32⟩
  | .local _ .vmem, ⟨25, _⟩ => ⟨S1x128x512, .f32⟩
  | .local _ .vmem, ⟨26, _⟩ => ⟨S1x2500x512, .f32⟩
  | .local _ .vmem, ⟨27, _⟩ => ⟨S1x2500x512, .f32⟩
  | .local _ .vmem, ⟨28, _⟩ => ⟨S1x128x2500, .f32⟩
  | .local _ .vmem, ⟨29, _⟩ => ⟨S1x128x2500, .f32⟩
  | .local _ .smem, ⟨0, _⟩ => ⟨S8, .i32⟩
  | _, _ => ⟨S8x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1280x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1280x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1024x1280 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1024x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1024x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1280x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

abbrev pre4 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (k4_off1_inb : ∀ i : grid4.Coords, ∀ a, (k4_off1 i) a + S1.size a ≤ S8.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S8) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x128x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x2500x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x128x2500 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S8x128x512_S1024x512 : S8x128x512.ShapeCasts S1024x512
  bcast_S_S8 : S_.BroadcastsInDim S8 (![] : Fin 0 → Fin S8.rank)
  bcast_S8_S8x128_0 : S8.BroadcastsInDim S8x128 (![0] : Fin 1 → Fin S8x128.rank)
  shapeCasts_S8x128_S1024 : S8x128.ShapeCasts S1024
  bcast_S1024_S1024x1_0 : S1024.BroadcastsInDim S1024x1 (![0] : Fin 1 → Fin S1024x1.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1280x512_S1280x512_0_0 : ∀ a, (![0, 0] : Fin 2 → Nat) a + S1280x512.size a ≤ S1280x512.size a
  h_S1280x512 : 0 < S1280x512.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1280 : S1024x1.Broadcasts S1024x1280
  inb_S1024x1280_S1024x1280_0_0 : ∀ a, (![0, 0] : Fin 2 → Nat) a + S1024x1280.size a ≤ S1024x1280.size a
  h_S1024x1280 : 0 < S1024x1280.numel
  shapeCasts_S1024x25000_S8x128x25000 : S1024x25000.ShapeCasts S8x128x25000
  numel1_S1 : S1.numel = 1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x2500x512_S1x2500x512_0_0_0 : ∀ a, (![0, 0, 0] : Fin 3 → Nat) a + S1x2500x512.size a ≤ S1x2500x512.size a
  h_S1x2500x512 : 0 < S1x2500x512.numel
  shapeCasts_S1x2500x512_S2500x512 : S1x2500x512.ShapeCasts S2500x512
  inb_S1x128x2500_S1x128x2500_0_0_0 : ∀ a, (![0, 0, 0] : Fin 3 → Nat) a + S1x128x2500.size a ≤ S1x128x2500.size a
  h_S1x128x2500 : 0 < S1x128x2500.numel
  shapeCasts_S1x128x2500_S128x2500 : S1x128x2500.ShapeCasts S128x2500
  shapeCasts_S128x2500_S1x128x2500 : S128x2500.ShapeCasts S1x128x2500
  concatenates_S8x128x25000_S8x128x2500_S8x128x27500_d2 : Shape.Concatenates [S8x128x25000, S8x128x2500] S8x128x27500 2
  reducesTo_S8x128x512_S8x512_d1 : S8x128x512.ReducesTo [1] S8x512
  h_S_ : 0 < S_.numel
  bcast_S_S8x512 : S_.BroadcastsInDim S8x512 (![] : Fin 0 → Fin S8x512.rank)
  transposes_S5x512_S512x5_1_0 : S5x512.Transposes [1, 0] S512x5
  bcast_S5_S1x5_1 : S5.BroadcastsInDim S1x5 (![1] : Fin 1 → Fin S1x5.rank)
  bcast_S1x5_S8x5_0_1 : S1x5.BroadcastsInDim S8x5 (![0, 1] : Fin 2 → Fin S8x5.rank)
  dot_S1024x512_S1280x512_S1024x1280_1_1_0_0_n_n_wf : DotDims.WF S1024x512 S1280x512 S1024x1280 [1] [1] [0] [0] [] []
  dot_S128x512_S2500x512_S128x2500_1_1_0_0_n_n_wf : DotDims.WF S128x512 S2500x512 S128x2500 [1] [1] [0] [0] [] []
  dot_S8x512_S512x5_S8x5_1_0_0_1_n_n_wf : DotDims.WF S8x512 S512x5 S8x5 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .f32 = 32 ∨ (Rect.block (s := S1024x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1024x1.size a
  hwx0_1 : ∀ i : grid0.Coords, EltTy.bits .f32 = 32 ∨ (Rect.block (s := S1024x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1280x512.size a < S25000x512.size a
  hwx0_2 : ∀ i : grid0.Coords, EltTy.bits .f32 = 32 ∨ (Rect.unit (s := S25000x512) (fun a => cc0_transform_2 i a * S1280x512.size a) (fun a => (Pipeline.Clip.of (cc0_transform_2 i a) (S1280x512.size a) (S25000x512.size a)).extent (S1280x512.size a)) fun a => Pipeline.Clip.inb (Pipeline.Clip.ok_of (hstart0_2 i a))).WholeWords (EltTy.packing .f32)
  hwxs0_2 : ∀ i : grid0.Coords, EltTy.bits .f32 = 32 ∨ (Rect.unit (s := S1280x512) (fun _ => 0) (fun a => (Pipeline.Clip.of (cc0_transform_2 i a) (S1280x512.size a) (S25000x512.size a)).extent (S1280x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1280.size a < S1024x25000.size a
  hwx0_3 : ∀ i : grid0.Coords, EltTy.bits .f32 = 32 ∨ (Rect.unit (s := S1024x25000) (fun a => cc0_transform_3 i a * S1024x1280.size a) (fun a => (Pipeline.Clip.of (cc0_transform_3 i a) (S1024x1280.size a) (S1024x25000.size a)).extent (S1024x1280.size a)) fun a => Pipeline.Clip.inb (Pipeline.Clip.ok_of (hstart0_3 i a))).WholeWords (EltTy.packing .f32)
  hwxs0_3 : ∀ i : grid0.Coords, EltTy.bits .f32 = 32 ∨ (Rect.unit (s := S1024x1280) (fun _ => 0) (fun a => (Pipeline.Clip.of (cc0_transform_3 i a) (S1024x1280.size a) (S1024x25000.size a)).extent (S1024x1280.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S1024x512.size a
  hwx1_0 : ∀ i : grid1.Coords, EltTy.bits .f32 = 32 ∨ (Rect.block (s := S1024x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S1024x1.size a
  hwx1_1 : ∀ i : grid1.Coords, EltTy.bits .f32 = 32 ∨ (Rect.block (s := S1024x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1280x512.size a < S25000x512.size a
  hwx1_2 : ∀ i : grid1.Coords, EltTy.bits .f32 = 32 ∨ (Rect.unit (s := S25000x512) (fun a => cc1_transform_2 i a * S1280x512.size a) (fun a => (Pipeline.Clip.of (cc1_transform_2 i a) (S1280x512.size a) (S25000x512.size a)).extent (S1280x512.size a)) fun a => Pipeline.Clip.inb (Pipeline.Clip.ok_of (hstart1_2 i a))).WholeWords (EltTy.packing .f32)
  hwxs1_2 : ∀ i : grid1.Coords, EltTy.bits .f32 = 32 ∨ (Rect.unit (s := S1280x512) (fun _ => 0) (fun a => (Pipeline.Clip.of (cc1_transform_2 i a) (S1280x512.size a) (S25000x512.size a)).extent (S1280x512.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x1280.size a < S1024x25000.size a
  hwx1_3 : ∀ i : grid1.Coords, EltTy.bits .f32 = 32 ∨ (Rect.unit (s := S1024x25000) (fun a => cc1_transform_3 i a * S1024x1280.size a) (fun a => (Pipeline.Clip.of (cc1_transform_3 i a) (S1024x1280.size a) (S1024x25000.size a)).extent (S1024x1280.size a)) fun a => Pipeline.Clip.inb (Pipeline.Clip.ok_of (hstart1_3 i a))).WholeWords (EltTy.packing .f32)
  hwxs1_3 : ∀ i : grid1.Coords, EltTy.bits .f32 = 32 ∨ (Rect.unit (s := S1024x1280) (fun _ => 0) (fun a => (Pipeline.Clip.of (cc1_transform_3 i a) (S1024x1280.size a) (S1024x25000.size a)).extent (S1024x1280.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S1024x512.size a
  hwx2_0 : ∀ i : grid2.Coords, EltTy.bits .f32 = 32 ∨ (Rect.block (s := S1024x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S1024x1.size a
  hwx2_1 : ∀ i : grid2.Coords, EltTy.bits .f32 = 32 ∨ (Rect.block (s := S1024x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S1280x512.size a < S25000x512.size a
  hwx2_2 : ∀ i : grid2.Coords, EltTy.bits .f32 = 32 ∨ (Rect.unit (s := S25000x512) (fun a => cc2_transform_2 i a * S1280x512.size a) (fun a => (Pipeline.Clip.of (cc2_transform_2 i a) (S1280x512.size a) (S25000x512.size a)).extent (S1280x512.size a)) fun a => Pipeline.Clip.inb (Pipeline.Clip.ok_of (hstart2_2 i a))).WholeWords (EltTy.packing .f32)
  hwxs2_2 : ∀ i : grid2.Coords, EltTy.bits .f32 = 32 ∨ (Rect.unit (s := S1280x512) (fun _ => 0) (fun a => (Pipeline.Clip.of (cc2_transform_2 i a) (S1280x512.size a) (S25000x512.size a)).extent (S1280x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S1024x1280.size a < S1024x25000.size a
  hwx2_3 : ∀ i : grid2.Coords, EltTy.bits .f32 = 32 ∨ (Rect.unit (s := S1024x25000) (fun a => cc2_transform_3 i a * S1024x1280.size a) (fun a => (Pipeline.Clip.of (cc2_transform_3 i a) (S1024x1280.size a) (S1024x25000.size a)).extent (S1024x1280.size a)) fun a => Pipeline.Clip.inb (Pipeline.Clip.ok_of (hstart2_3 i a))).WholeWords (EltTy.packing .f32)
  hwxs2_3 : ∀ i : grid2.Coords, EltTy.bits .f32 = 32 ∨ (Rect.unit (s := S1024x1280) (fun _ => 0) (fun a => (Pipeline.Clip.of (cc2_transform_3 i a) (S1024x1280.size a) (S1024x25000.size a)).extent (S1024x1280.size a)) fun a => (Nat.zero_add _).trans_le (Pipeline.Clip.extent_le (Pipeline.Clip.ok_of (hstart2_3 i a)))).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S1024x512.size a
  hwx3_0 : ∀ i : grid3.Coords, EltTy.bits .f32 = 32 ∨ (Rect.block (s := S1024x512) S1024x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S1024x1.size a
  hwx3_1 : ∀ i : grid3.Coords, EltTy.bits .f32 = 32 ∨ (Rect.block (s := S1024x1) S1024x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S1280x512.size a < S25000x512.size a
  hwx3_2 : ∀ i : grid3.Coords, EltTy.bits .f32 = 32 ∨ (Rect.unit (s := S25000x512) (fun a => cc3_transform_2 i a * S1280x512.size a) (fun a => (Pipeline.Clip.of (cc3_transform_2 i a) (S1280x512.size a) (S25000x512.size a)).extent (S1280x512.size a)) fun a => Pipeline.Clip.inb (Pipeline.Clip.ok_of (hstart3_2 i a))).WholeWords (EltTy.packing .f32)
  hwxs3_2 : ∀ i : grid3.Coords, EltTy.bits .f32 = 32 ∨ (Rect.unit (s := S1280x512) (fun _ => 0) (fun a => (Pipeline.Clip.of (cc3_transform_2 i a) (S1280x512.size a) (S25000x512.size a)).extent (S1280x512.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hstart3_3 : ∀ (i : grid3.Coords) a, cc3_transform_3 i a * S1024x1280.size a < S1024x25000.size a
  hwx3_3 : ∀ i : grid3.Coords, EltTy.bits .f32 = 32 ∨ (Rect.unit (s := S1024x25000) (fun a => cc3_transform_3 i a * S1024x1280.size a) (fun a => (Pipeline.Clip.of (cc3_transform_3 i a) (S1024x1280.size a) (S1024x25000.size a)).extent (S1024x1280.size a)) fun a => Pipeline.Clip.inb (Pipeline.Clip.ok_of (hstart3_3 i a))).WholeWords (EltTy.packing .f32)
  hwxs3_3 : ∀ i : grid3.Coords, EltTy.bits .f32 = 32 ∨ (Rect.unit (s := S1024x1280) (fun _ => 0) (fun a => (Pipeline.Clip.of (cc3_transform_3 i a) (S1024x1280.size a) (S1024x25000.size a)).extent (S1024x1280.size a)) fun a => (Nat.zero_add _).trans_le (Pipeline.Clip.extent_le (Pipeline.Clip.ok_of (hstart3_3 i a)))).WholeWords (EltTy.packing .f32)
  hrank4 : 0 < grid4.rank
  k4_off1_inb : ∀ i : grid4.Coords, ∀ a, (k4_off1 i) a + S1.size a ≤ S8.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x128x512.size a ≤ S8x128x512.size a
  hwx4_0 : ∀ i : grid4.Coords, EltTy.bits .f32 = 32 ∨ (Rect.block (s := S8x128x512) S1x128x512.size (cc4_transform_0 i) (hinb4_0 i)).WholeWords (EltTy.packing .f32)
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x128x2500.size a ≤ S8x128x2500.size a
  hwx4_2 : ∀ i : grid4.Coords, EltTy.bits .f32 = 32 ∨ (Rect.block (s := S8x128x2500) S1x128x2500.size (cc4_transform_2 i) (hinb4_2 i)).WholeWords (EltTy.packing .f32)

variable [Facts₀]

def dot_S1024x512_S1280x512_S1024x1280_1_1_0_0_n_n : DotDims S1024x512 S1280x512 S1024x1280 where
  lhsContracting := [1]
  rhsContracting := [1]
  lhsNonContracting := [0]
  rhsNonContracting := [0]
  lhsBatch := []
  rhsBatch := []
  wf := dot_S1024x512_S1280x512_S1024x1280_1_1_0_0_n_n_wf
def dot_S128x512_S2500x512_S128x2500_1_1_0_0_n_n : DotDims S128x512 S2500x512 S128x2500 where
  lhsContracting := [1]
  rhsContracting := [1]
  lhsNonContracting := [0]
  rhsNonContracting := [0]
  lhsBatch := []
  rhsBatch := []
  wf := dot_S128x512_S2500x512_S128x2500_1_1_0_0_n_n_wf
def dot_S8x512_S512x5_S8x5_1_0_0_1_n_n : DotDims S8x512 S512x5 S8x5 where
  lhsContracting := [1]
  rhsContracting := [0]
  lhsNonContracting := [0]
  rhsNonContracting := [1]
  lhsBatch := []
  rhsBatch := []
  wf := dot_S8x512_S512x5_S8x5_1_0_0_1_n_n_wf

abbrev win0_0 : Pipeline.Window sig grid0 :=
  Pipeline.Window.ofSpec (Memref.whole main_v0) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg3) S1280x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v17) S1024x1280.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpecClip (Memref.whole main_arg5) S1280x512.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v19) S1024x1280.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1024x512.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpecClip (Memref.whole main_arg6) S1280x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v21) S1024x1280.size cc2_transform_3 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S1024x512.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1024x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpecClip (Memref.whole main_arg7) S1280x512.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v23) S1024x1280.size cc3_transform_3 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev spec4_0 : Pipeline.WinSpec sig grid4.rank :=
  Pipeline.WinSpec.ofSpec (Memref.whole main_arg0) S1x128x512.size reads4_0 false false 2 stage4_0 sem4_0 nbuf4_0 hstage4_0

abbrev spec4_1 : Pipeline.WinSpec sig grid4.rank :=
  Pipeline.WinSpec.ofSpec (Memref.whole main_arg4) S1x2500x512.size reads4_1 false false 2 stage4_1 sem4_1 nbuf4_1 hstage4_1

abbrev spec4_2 : Pipeline.WinSpec sig grid4.rank :=
  Pipeline.WinSpec.ofSpec (Memref.whole main_v25) S1x128x2500.size reads4_2 true false 2 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_1 k4_off1_inb numel1_S1 pf i a + 1) * S1x2500x512.size a ≤ S6x2500x512.size a), EltTy.bits .f32 = 32 ∨ (Rect.block (s := S6x2500x512) S1x2500x512.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => hinb4_0 | 1 => fun i a => (hok i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => hwx4_0 | 1 => fun i => (hok i).elim fun _ h => h | 2 => hwx4_2 | ⟨_ + 3, h⟩ => absurd h (Nat.not_lt.2 (Nat.le_add_left _ _))

class Facts : Prop extends Facts₀ where
  harr4 : ∀ w, (spec4 w).arr.IsWhole

variable [Facts]
-- ==== ReferenceIdeal.lean ====
abbrev S8x128x512 : Shape := ⟨3, ![8, 128, 512]⟩
abbrev S8 : Shape := ⟨1, ![8]⟩
abbrev S25000x512 : Shape := ⟨2, ![25000, 512]⟩
abbrev S6x2500x512 : Shape := ⟨3, ![6, 2500, 512]⟩
abbrev S5x512 : Shape := ⟨2, ![5, 512]⟩
abbrev S5 : Shape := ⟨1, ![5]⟩
abbrev S8x128x25000 : Shape := ⟨3, ![8, 128, 25000]⟩
abbrev S_ : Shape := ⟨0, ![]⟩
abbrev S8x1 : Shape := ⟨2, ![8, 1]⟩
abbrev S8x2500x512 : Shape := ⟨3, ![8, 2500, 512]⟩
abbrev S8x128x2500 : Shape := ⟨3, ![8, 128, 2500]⟩
abbrev S8x128x27500 : Shape := ⟨3, ![8, 128, 27500]⟩
abbrev S8x1x1 : Shape := ⟨3, ![8, 1, 1]⟩
abbrev S8x512 : Shape := ⟨2, ![8, 512]⟩
abbrev S512x5 : Shape := ⟨2, ![512, 5]⟩
abbrev S8x5 : Shape := ⟨2, ![8, 5]⟩
abbrev S1x5 : Shape := ⟨2, ![1, 5]⟩

abbrev nBuf : Space → Nat
  | .hbm => 51
  | .vmem => 0
  | .smem => 0
  | _ => 0

abbrev bufTy : (tb : Table) → Fin (tcTables nBuf tb) → BufTy
  | .hbm, ⟨0, _⟩ => ⟨S8x128x512, .f32⟩
  | .hbm, ⟨1, _⟩ => ⟨S8, .i32⟩
  | .hbm, ⟨2, _⟩ => ⟨S8, .i32⟩
  | .hbm, ⟨3, _⟩ => ⟨S25000x512, .f32⟩
  | .hbm, ⟨4, _⟩ => ⟨S6x2500x512, .f32⟩
  | .hbm, ⟨5, _⟩ => ⟨S25000x512, .f32⟩
  | .hbm, ⟨6, _⟩ => ⟨S25000x512, .f32⟩
  | .hbm, ⟨7, _⟩ => ⟨S25000x512, .f32⟩
  | .hbm, ⟨8, _⟩ => ⟨S5x512, .f32⟩
  | .hbm, ⟨9, _⟩ => ⟨S5, .f32⟩
  | .hbm, ⟨10, _⟩ => ⟨S8x128x25000, .f32⟩
  | .hbm, ⟨11, _⟩ => ⟨S_, .i32⟩
  | .hbm, ⟨12, _⟩ => ⟨S8, .i32⟩
  | .hbm, ⟨13, _⟩ => ⟨S8, .i1⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S8x1, .i32⟩
  | .hbm, ⟨19, _⟩ => ⟨S8x2500x512, .f32⟩
  | .hbm, ⟨20, _⟩ => ⟨S8x128x2500, .f32⟩
  | .hbm, ⟨21, _⟩ => ⟨S8x128x27500, .f32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S8, .f32⟩
  | .hbm, ⟨26, _⟩ => ⟨S8x1x1, .f32⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S8, .f32⟩
  | .hbm, ⟨31, _⟩ => ⟨S8x1x1, .f32⟩
  | .hbm, ⟨32, _⟩ => ⟨S8x128x25000, .f32⟩
  | .hbm, ⟨33, _⟩ => ⟨S8x128x25000, .f32⟩
  | .hbm, ⟨34, _⟩ => ⟨S8x128x25000, .f32⟩
  | .hbm, ⟨35, _⟩ => ⟨S8x128x25000, .f32⟩
  | .hbm, ⟨36, _⟩ => ⟨S8x128x25000, .f32⟩
  | .hbm, ⟨37, _⟩ => ⟨S8x128x25000, .f32⟩
  | .hbm, ⟨38, _⟩ => ⟨S8x128x25000, .f32⟩
  | .hbm, ⟨39, _⟩ => ⟨S8x128x25000, .f32⟩
  | .hbm, ⟨40, _⟩ => ⟨S8x128x25000, .f32⟩
  | .hbm, ⟨41, _⟩ => ⟨S_, .f32⟩
  | .hbm, ⟨42, _⟩ => ⟨S8x512, .f32⟩
  | .hbm, ⟨43, _⟩ => ⟨S_, .f32⟩
  | .hbm, ⟨44, _⟩ => ⟨S8x512, .f32⟩
  | .hbm, ⟨45, _⟩ => ⟨S8x512, .f32⟩
  | .hbm, ⟨46, _⟩ => ⟨S512x5, .f32⟩
  | .hbm, ⟨47, _⟩ => ⟨S8x5, .f32⟩
  | .hbm, ⟨48, _⟩ => ⟨S1x5, .f32⟩
  | .hbm, ⟨49, _⟩ => ⟨S8x5, .f32⟩
  | .hbm, ⟨50, _⟩ => ⟨S8x5, .f32⟩
  | _, _ => ⟨S8x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S8x1_0 : S8.BroadcastsInDim S8x1 (![0] : Fin 1 → Fin S8x1.rank)
  concatenates_S8x128x25000_S8x128x2500_S8x128x27500_d2 : Shape.Concatenates [S8x128x25000, S8x128x2500] S8x128x27500 2
  bcast_S8_S8x1x1_0 : S8.BroadcastsInDim S8x1x1 (![0] : Fin 1 → Fin S8x1x1.rank)
  bcast_S8x1x1_S8x128x25000_0_1_2 : S8x1x1.BroadcastsInDim S8x128x25000 (![0, 1, 2] : Fin 3 → Fin S8x128x25000.rank)
  reducesTo_S8x128x512_S8x512_d1 : S8x128x512.ReducesTo [1] S8x512
  h_S_ : 0 < S_.numel
  bcast_S_S8x512 : S_.BroadcastsInDim S8x512 (![] : Fin 0 → Fin S8x512.rank)
  transposes_S5x512_S512x5_1_0 : S5x512.Transposes [1, 0] S512x5
  bcast_S5_S1x5_1 : S5.BroadcastsInDim S1x5 (![1] : Fin 1 → Fin S1x5.rank)
  bcast_S1x5_S8x5_0_1 : S1x5.BroadcastsInDim S8x5 (![0, 1] : Fin 2 → Fin S8x5.rank)
  dot_S8x128x512_S25000x512_S8x128x25000_2_1_01_0_n_n_wf : DotDims.WF S8x128x512 S25000x512 S8x128x25000 [2] [1] [0, 1] [0] [] []
  gather_S6x2500x512_S8x1_S8x2500x512_12_0_n_n_0_1_12500512_wf : GatherDims.WF S6x2500x512 S8x1 S8x2500x512 [1, 2] [0] [] [0] [] 1 ![1, 2500, 512]
  dot_S8x128x512_S8x2500x512_S8x128x2500_2_2_1_1_0_0_wf : DotDims.WF S8x128x512 S8x2500x512 S8x128x2500 [2] [2] [1] [1] [0] [0]
  dot_S8x512_S512x5_S8x5_1_0_0_1_n_n_wf : DotDims.WF S8x512 S512x5 S8x5 [1] [0] [0] [1] [] []

variable [Facts₀]

def dot_S8x128x512_S25000x512_S8x128x25000_2_1_01_0_n_n : DotDims S8x128x512 S25000x512 S8x128x25000 where
  lhsContracting := [2]
  rhsContracting := [1]
  lhsNonContracting := [0, 1]
  rhsNonContracting := [0]
  lhsBatch := []
  rhsBatch := []
  wf := dot_S8x128x512_S25000x512_S8x128x25000_2_1_01_0_n_n_wf
def gather_S6x2500x512_S8x1_S8x2500x512_12_0_n_n_0_1_12500512 : GatherDims S6x2500x512 S8x1 S8x2500x512 where
  offsetDims := [1, 2]
  collapsedSliceDims := [0]
  operandBatchingDims := []
  startIndicesBatchingDims := []
  startIndexMap := [0]
  indexVectorDim := 1
  sliceSizes := ![1, 2500, 512]
  wf := gather_S6x2500x512_S8x1_S8x2500x512_12_0_n_n_0_1_12500512_wf
def dot_S8x128x512_S8x2500x512_S8x128x2500_2_2_1_1_0_0 : DotDims S8x128x512 S8x2500x512 S8x128x2500 where
  lhsContracting := [2]
  rhsContracting := [2]
  lhsNonContracting := [1]
  rhsNonContracting := [1]
  lhsBatch := [0]
  rhsBatch := [0]
  wf := dot_S8x128x512_S8x2500x512_S8x128x2500_2_2_1_1_0_0_wf
def dot_S8x512_S512x5_S8x5_1_0_0_1_n_n : DotDims S8x512 S512x5 S8x5 where
  lhsContracting := [1]
  rhsContracting := [0]
  lhsNonContracting := [0]
  rhsNonContracting := [1]
  lhsBatch := []
  rhsBatch := []
  wf := dot_S8x512_S512x5_S8x5_1_0_0_1_n_n_wf

class Facts : Prop extends Facts₀ where

variable [Facts]
-- ==== Proof.KI.Adm.lean ====
import proofs.«420588_j52003464020428_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The language ids as the launch memory holds them. -/
def tbl : pre4.Contents (Elt F) := fun k => m (((0 : Dev nD) : Thread nD τ).loc (pre4.ref k))

theorem V1_pre (c : Dev nD) (k : Fin 1) : V1 m c (pre4.ref k) = tbl m k := by
  obtain rfl : c = 0 := Subsingleton.elim _ _
  obtain rfl : k = 0 := Subsingleton.elim _ _
  exact (V1_of m 0 main_arg1 (by decide)).trans rfl

/-- The admissible table contents, pipeline by pipeline: only the language head has a table. -/
def adm (hok : ok4 (F := F) (tbl m)) : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => ⟨tbl m, hok⟩
  | ⟨_ + 5, h⟩ => absurd h (Nat.not_lt.2 (Nat.le_add_left _ _))

variable (hok : ok4 (F := F) (tbl m))

end Cert.KernelIdeal.Hand
-- ==== Proof.KI.Ids.lean ====
import proofs.«420588_j52003464020428_2_alg».proof.Proof.KI.Adm
import proofs.«420588_j52003464020428_2_alg».proof.Pre_finite_inputs
import Idealize.ShloMosaic.Lib.ReduceAll

noncomputable section

namespace Cert.KernelIdeal.Hand

open Cert.KernelIdeal Cert.KernelIdeal.Gen
open Idealize.ShloMosaic Idealize.ShloMosaic.TcCoe Idealize.SL.Sem

variable {F : FTy → Type} [FloatOps F]
variable [Cert.Pre_finite_inputs.Facts]
variable (m : (ℓ : Loc nD τ sig) → Buf (Elt F) ℓ)

def PreM : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) = (fun _ => 1#1)

instance subsingleton_scalarIdx : Subsingleton Cert.Pre_finite_inputs.S_.Idx := ⟨fun a b => funext fun d => d.elim0⟩

/-- A word with 0 ≤ w and w < n as signed words, n small, is below n as a natural number: the first test clears the sign bit. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, BitVec.toInt_eq_toNat_of_lt h0,
    BitVec.toInt_eq_toNat_of_lt (by rw [BitVec.toNat_ofNat]; omega), BitVec.toNat_ofNat] at h1
  omega

/-- The precondition's last conjunct, decoded: every language id is in [0, 6). -/
theorem ids_lt (h : PreM m) (x : S8.Idx) : (m (((0 : Dev nD) : Thread nD τ).loc main_arg1) x).toNat < 6 := by
  have e := congrFun (h 0) (fun a => a.elim0)
  have e2 := (IntOp.andi_eq_one.1 e).2
  have e3 := Host.reduce_andi_all _ _ _ _ _ e2 x
  obtain ⟨h0, h6⟩ := IntOp.andi_eq_one.1 e3
  exact toNat_lt_of_signed _ 6 (by decide) h0 h6

/-- With every id below six the selected slab lies inside the six slabs of the weights. -/
theorem ok4_of_lt (pf : pre4.Contents (Elt F)) (hl : ∀ x, (pf 0 x).toNat < 6) : ok4 (F := F) pf := by
  intro i
  refine ⟨fun a => ?_, Or.inl rfl⟩
  match a with
  | ⟨0, _⟩ =>
    show ((pf 0 _).toNat + 1) * 1 ≤ 6
    rw [Nat.mul_one]
    exact hl _
  | ⟨1, _⟩ => show ((0#32 : BitVec 32).toNat + 1) * 2500 ≤ 2500; decide
  | ⟨2, _⟩ => show ((0#32 : BitVec 32).toNat + 1) * 512 ≤ 512; decide

theorem ok4_of_pre (h : PreM m) : ok4 (F := F) (tbl m) :=
  ok4_of_lt (tbl m) fun x => ids_lt m h x

end Cert.KernelIdeal.Hand
-- ==== Proof.KI.Threads.lean ====
import proofs.«420588_j52003464020428_2_alg».proof.Proof.Gen.KernelIdeal.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev MM (F : FTy → Type) : Type := MT nD τ sig Unit (Elt F) ℕ (UR sig nD τ) ℕ

abbrev 𝒱₀ : Variants := Variants.none

abbrev L : GSem nD τ sig → Finset Unit := fun _ => ∅
abbrev lv : GSem nD τ sig → Unit → ℕ := fun _ _ => 0

abbrev R (c : Dev nD) : sProp (MM F) :=
  iprop((∃ r, prngReg c r) ∗ ∃ W, owes (c : Thread nD τ) (0 : CellTallies nD τ sig Unit) W)

variable (m : (ℓ : Loc nD τ sig) → Buf (Elt F) ℓ)

abbrev VE (c : Dev nD) (b : Ref sig .tc) : Buf (Elt F) ((c : Thread nD τ).loc b) := V1 m c b

end Cert.KernelIdeal.Hand

end
-- ==== Proof.KI.Dat0.lean ====
import proofs.«420588_j52003464020428_2_alg».proof.Proof.Gen.KernelIdeal.Launch
import proofs.«420588_j52003464020428_2_alg».proof.Proof.Gen.KernelIdeal.Skeleton
import proofs.«420588_j52003464020428_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x512 := Rect.unit (s := S1024x512) ![0, 0] S1024x512.size inb_S1024x512_S1024x512_0_0
abbrev r0_1 : Rect S1024x1 := Rect.unit (s := S1024x1) ![0, 0] S1024x1.size inb_S1024x1_S1024x1_0_0
abbrev r0_2 : Rect S1280x512 := Rect.unit (s := S1280x512) ![0, 0] S1280x512.size inb_S1280x512_S1280x512_0_0
abbrev r0_3 : Rect S1024x1280 := Rect.unit (s := S1024x1280) ![0, 0] S1024x1280.size inb_S1024x1280_S1024x1280_0_0

/-- What the body leaves in the output block: the rows of the first operand against the rows of the third, each scaled by its entry of the second. The four heads run one body, so one name serves them all. -/
def out0_3 (x0 : Vec F S1024x512 .f32) (x1 : Vec F S1024x1 .f32) (x2 : Vec F S1280x512 .f32) : Vec F S1024x1280 .f32 :=
  View.canon [⟨r0_3, k0_pay1 (View.ld x0 r0_0) (View.ld x2 r0_2) (View.ld x1 r0_1)⟩]

def wblk0 (c : Dev nD) (t : Fin cfg0.N) : S1280x512.Idx → Elt F .f32 :=
  (cfg0.win 2).fill (grid0.coords t) (fun _ => Scalar.ofBits .f32 0#32) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => wblk0 V c t
    | ⟨3, _⟩ => out0_3 (iblk0 V c 0 t) (iblk0 V c 1 t) (wblk0 V c t)
  Φ _ := Pipeline.ΦA spec0 c
  q _ := fullShare
  owed _ := 0

end Cert.KernelIdeal.Hand

end
-- ==== Proof.KI.Dat1.lean ====
import proofs.«420588_j52003464020428_2_alg».proof.Proof.Gen.KernelIdeal.Launch
import proofs.«420588_j52003464020428_2_alg».proof.Proof.Gen.KernelIdeal.Skeleton
import proofs.«420588_j52003464020428_2_alg».proof.Proof.Gen.KernelIdeal.Points
import proofs.«420588_j52003464020428_2_alg».proof.Proof.KI.Dat0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def wblk1 (c : Dev nD) (t : Fin cfg1.N) : S1280x512.Idx → Elt F .f32 :=
  (cfg1.win 2).fill (grid1.coords t) (fun _ => Scalar.ofBits .f32 0#32) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => wblk1 V c t
    | ⟨3, _⟩ => out0_3 (iblk1 V c 0 t) (iblk1 V c 1 t) (wblk1 V c t)
  Φ _ := Pipeline.ΦA spec1 c
  q _ := fullShare
  owed _ := 0

end Cert.KernelIdeal.Hand

end
-- ==== Proof.KI.Dat2.lean ====
import proofs.«420588_j52003464020428_2_alg».proof.Proof.Gen.KernelIdeal.Launch
import proofs.«420588_j52003464020428_2_alg».proof.Proof.Gen.KernelIdeal.Skeleton
import proofs.«420588_j52003464020428_2_alg».proof.Proof.Gen.KernelIdeal.Points
import proofs.«420588_j52003464020428_2_alg».proof.Proof.KI.Dat0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def wblk2 (c : Dev nD) (t : Fin cfg2.N) : S1280x512.Idx → Elt F .f32 :=
  (cfg2.win 2).fill (grid2.coords t) (fun _ => Scalar.ofBits .f32 0#32) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => wblk2 V c t
    | ⟨3, _⟩ => out0_3 (iblk2 V c 0 t) (iblk2 V c 1 t) (wblk2 V c t)
  Φ _ := Pipeline.ΦA spec2 c
  q _ := fullShare
  owed _ := 0

end Cert.KernelIdeal.Hand

end
-- ==== Proof.KI.Dat3.lean ====
import proofs.«420588_j52003464020428_2_alg».proof.Proof.Gen.KernelIdeal.Launch
import proofs.«420588_j52003464020428_2_alg».proof.Proof.Gen.KernelIdeal.Skeleton
import proofs.«420588_j52003464020428_2_alg».proof.Proof.Gen.KernelIdeal.Points
import proofs.«420588_j52003464020428_2_alg».proof.Proof.KI.Dat0
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def wblk3 (c : Dev nD) (t : Fin cfg3.N) : S1280x512.Idx → Elt F .f32 :=
  (cfg3.win 2).fill (grid3.coords t) (fun _ => Scalar.ofBits .f32 0#32) (iblk3 V c 2 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => wblk3 V c t
    | ⟨3, _⟩ => out0_3 (iblk3 V c 0 t) (iblk3 V c 1 t) (wblk3 V c t)
  Φ _ := Pipeline.ΦA spec3 c
  q _ := fullShare
  owed _ := 0

end Cert.KernelIdeal.Hand

end
-- ==== Proof.KI.Dat4.lean ====
import proofs.«420588_j52003464020428_2_alg».proof.Proof.Gen.KernelIdeal.Launch
import proofs.«420588_j52003464020428_2_alg».proof.Proof.Gen.KernelIdeal.Skeleton
import proofs.«420588_j52003464020428_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

abbrev r4_0 : Rect S1x128x2500 := Rect.unit (s := S1x128x2500) ![0, 0, 0] S1x128x2500.size inb_S1x128x2500_S1x128x2500_0_0_0

def out4_2 (x0 : Vec F S1x128x512 .f32) (x1 : Vec F S1x2500x512 .f32) : Vec F S1x128x2500 .f32 :=
  View.canon [⟨r4_0, k4_pay1 x0 x1⟩]

def Φ4 (c : Dev nD) : sProp 𝕄 :=
  iprop(Pipeline.ΦA spec4 c ∗ Pipeline.prefHeld pre4 c (fun _ => fullShare) a.1)

def dat4 (c : Dev nD) : Dat τ (Elt F) Unit ℕ (UR sig nD τ) ℕ (cfg4 a) c where
  A w := V c (Pipeline.arrRef spec4 w)
  after w t := match w with
    | ⟨0, _⟩ => iblk4 a V c 0 t
    | ⟨1, _⟩ => iblk4 a V c 1 t
    | ⟨2, _⟩ => out4_2 (iblk4 a V c 0 t) (iblk4 a V c 1 t)
  Φ _ := Φ4 a c
  q _ := fullShare
  owed _ := 0

end Cert.KernelIdeal.Hand

end
-- ==== Proof.KI.Pdats.lean ====
import proofs.«420588_j52003464020428_2_alg».proof.Proof.KI.Threads
import proofs.«420588_j52003464020428_2_alg».proof.Proof.KI.Adm
import proofs.«420588_j52003464020428_2_alg».proof.Proof.KI.Dat0
import proofs.«420588_j52003464020428_2_alg».proof.Proof.KI.Dat1
import proofs.«420588_j52003464020428_2_alg».proof.Proof.KI.Dat2
import proofs.«420588_j52003464020428_2_alg».proof.Proof.KI.Dat3
import proofs.«420588_j52003464020428_2_alg».proof.Proof.KI.Dat4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ) (hok : ok4 (F := F) (tbl m))

/-- Every region's proof data, stated at the arrays' contents after the first host operations. -/
def pdats : (p : Fin 5) → (c : Dev nD) → Dat τ (Elt F) Unit ℕ (UR sig nD τ) ℕ (Pipeline.pin (pcfgs (F := F)) (adm m hok) p) c
  | ⟨0, _⟩ => fun c => dat0 (VE m) c
  | ⟨1, _⟩ => fun c => dat1 (VE m) c
  | ⟨2, _⟩ => fun c => dat2 (VE m) c
  | ⟨3, _⟩ => fun c => dat3 (VE m) c
  | ⟨4, _⟩ => fun c => dat4 (adm m hok 4) (VE m) c

end Cert.KernelIdeal.Hand

end
-- ==== Proof.KI.Pin0.lean ====
import proofs.«420588_j52003464020428_2_alg».proof.Proof.KI.Threads

noncomputable section

namespace Cert.KernelIdeal.Hand

open Cert.KernelIdeal Cert.KernelIdeal.Gen
open Idealize.ShloMosaic Idealize.ShloMosaic.TcCoe

variable {F : FTy → Type} [FloatOps F]

/-- The valuation region 0 is entered from, its output array, and the index that array's contents have in `outs`. -/
abbrev Vin0 (m : (ℓ : Loc nD τ sig) → Buf (Elt F) ℓ) (outs : Outs (F := F)) (c : Dev nD) : Valuation τ sig (Elt F) := V1 m c
abbrev oarr0 : Ref sig .tc := main_v17
abbrev oidx0 : ℕ := 2

variable (m : (ℓ : Loc nD τ sig) → Buf (Elt F) ℓ) (outs : Outs (F := F))

/-- No item before the region writes one of its windows' arrays. -/
theorem Vin0_arr (c : Dev nD) (w : Fin 4) : Vin0 m outs c (Pipeline.arrRef spec0 w) = VE m c (Pipeline.arrRef spec0 w) :=
  rfl

end Cert.KernelIdeal.Hand

end
-- ==== Proof.KI.Pin1.lean ====
import proofs.«420588_j52003464020428_2_alg».proof.Proof.KI.Threads

noncomputable section

namespace Cert.KernelIdeal.Hand

open Cert.KernelIdeal Cert.KernelIdeal.Gen
open Idealize.ShloMosaic Idealize.ShloMosaic.TcCoe

variable {F : FTy → Type} [FloatOps F]

/-- The valuation region 1 is entered from, its output array, and the index that array's contents have in `outs`. -/
abbrev Vin1 (m : (ℓ : Loc nD τ sig) → Buf (Elt F) ℓ) (outs : Outs (F := F)) (c : Dev nD) : Valuation τ sig (Elt F) := V3 m outs c
abbrev oarr1 : Ref sig .tc := main_v19
abbrev oidx1 : ℕ := 4

variable (m : (ℓ : Loc nD τ sig) → Buf (Elt F) ℓ) (outs : Outs (F := F))

/-- No item before the region writes one of its windows' arrays. -/
theorem Vin1_arr (c : Dev nD) (w : Fin 4) : Vin1 m outs c (Pipeline.arrRef spec1 w) = VE m c (Pipeline.arrRef spec1 w) :=
  (V3_of m outs c _ (by revert w; decide)).trans <| (V2_of m outs c _ (by revert w; decide))

end Cert.KernelIdeal.Hand

end
-- ==== Proof.KI.Pin2.lean ====
import proofs.«420588_j52003464020428_2_alg».proof.Proof.KI.Threads

noncomputable section

namespace Cert.KernelIdeal.Hand

open Cert.KernelIdeal Cert.KernelIdeal.Gen
open Idealize.ShloMosaic Idealize.ShloMosaic.TcCoe

variable {F : FTy → Type} [FloatOps F]

/-- The valuation region 2 is entered from, its output array, and the index that array's contents have in `outs`. -/
abbrev Vin2 (m : (ℓ : Loc nD τ sig) → Buf (Elt F) ℓ) (outs : Outs (F := F)) (c : Dev nD) : Valuation τ sig (Elt F) := V5 m outs c
abbrev oarr2 : Ref sig .tc := main_v21
abbrev oidx2 : ℕ := 6

variable (m : (ℓ : Loc nD τ sig) → Buf (Elt F) ℓ) (outs : Outs (F := F))

/-- No item before the region writes one of its windows' arrays. -/
theorem Vin2_arr (c : Dev nD) (w : Fin 4) : Vin2 m outs c (Pipeline.arrRef spec2 w) = VE m c (Pipeline.arrRef spec2 w) :=
  (V5_of m outs c _ (by revert w; decide)).trans <| (V4_of m outs c _ (by revert w; decide)).trans <| (V3_of m outs c _ (by revert w; decide)).trans <| (V2_of m outs c _ (by revert w; decide))

end Cert.KernelIdeal.Hand

end
-- ==== Proof.KI.Pin3.lean ====
import proofs.«420588_j52003464020428_2_alg».proof.Proof.KI.Threads

noncomputable section

namespace Cert.KernelIdeal.Hand

open Cert.KernelIdeal Cert.KernelIdeal.Gen
open Idealize.ShloMosaic Idealize.ShloMosaic.TcCoe

variable {F : FTy → Type} [FloatOps F]

/-- The valuation region 3 is entered from, its output array, and the index that array's contents have in `outs`. -/
abbrev Vin3 (m : (ℓ : Loc nD τ sig) → Buf (Elt F) ℓ) (outs : Outs (F := F)) (c : Dev nD) : Valuation τ sig (Elt F) := V7 m outs c
abbrev oarr3 : Ref sig .tc := main_v23
abbrev oidx3 : ℕ := 8

variable (m : (ℓ : Loc nD τ sig) → Buf (Elt F) ℓ) (outs : Outs (F := F))

/-- No item before the region writes one of its windows' arrays. -/
theorem Vin3_arr (c : Dev nD) (w : Fin 4) : Vin3 m outs c (Pipeline.arrRef spec3 w) = VE m c (Pipeline.arrRef spec3 w) :=
  (V7_of m outs c _ (by revert w; decide)).trans <| (V6_of m outs c _ (by revert w; decide)).trans <| (V5_of m outs c _ (by revert w; decide)).trans <| (V4_of m outs c _ (by revert w; decide)).trans <| (V3_of m outs c _ (by revert w; decide)).trans <| (V2_of m outs c _ (by revert w; decide))

end Cert.KernelIdeal.Hand

end
-- ==== Proof.KI.Pin4.lean ====
import proofs.«420588_j52003464020428_2_alg».proof.Proof.KI.Threads

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev Vin4 (m : (ℓ : Loc nD τ sig) → Buf (Elt F) ℓ) (outs : Outs (F := F)) (c : Dev nD) : Valuation τ sig (Elt F) := V9 m outs c
abbrev Vout4 (m : (ℓ : Loc nD τ sig) → Buf (Elt F) ℓ) (outs : Outs (F := F)) (c : Dev nD) : Valuation τ sig (Elt F) := V10 m outs c

abbrev oarr4 : Ref sig .tc := main_v25
abbrev oidx4 : ℕ := 10

variable (m : (ℓ : Loc nD τ sig) → Buf (Elt F) ℓ) (outs : Outs (F := F))

theorem Vin4_main_arg0 (c : Dev nD) : Vin4 m outs c main_arg0 = V1 m c main_arg0 :=
  (V9_of m outs c main_arg0 (by decide)).trans <| (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m outs c main_arg0 (by decide)).trans <| (V2_of m outs c main_arg0 (by decide)).trans rfl
theorem Vin4_main_arg4 (c : Dev nD) : Vin4 m outs c main_arg4 = V1 m c main_arg4 :=
  (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans rfl
theorem Vin4_main_v25 (c : Dev nD) : Vin4 m outs c main_v25 = V1 m c main_v25 :=
  (V9_of m outs c main_v25 (by decide)).trans <| (V8_of m outs c main_v25 (by decide)).trans <| (V7_of m outs c main_v25 (by decide)).trans <| (V6_of m outs c main_v25 (by decide)).trans <| (V5_of m outs c main_v25 (by decide)).trans <| (V4_of m outs c main_v25 (by decide)).trans <| (V3_of m outs c main_v25 (by decide)).trans <| (V2_of m outs c main_v25 (by decide)).trans rfl

theorem Vin4_arr (c : Dev nD) : ∀ w : Fin 3, Vin4 m outs c (Pipeline.arrRef spec4 w) = VE m c (Pipeline.arrRef spec4 w)
  | ⟨0, _⟩ => Vin4_main_arg0 m outs c
  | ⟨1, _⟩ => Vin4_main_arg4 m outs c
  | ⟨2, _⟩ => Vin4_main_v25 m outs c

end Cert.KernelIdeal.Hand

end
-- ==== Proof.KI.Outs.lean ====
import proofs.«420588_j52003464020428_2_alg».proof.Proof.KI.Pdats
import proofs.«420588_j52003464020428_2_alg».proof.Proof.KI.Pin0
import proofs.«420588_j52003464020428_2_alg».proof.Proof.KI.Pin1
import proofs.«420588_j52003464020428_2_alg».proof.Proof.KI.Pin2
import proofs.«420588_j52003464020428_2_alg».proof.Proof.KI.Pin3
import proofs.«420588_j52003464020428_2_alg».proof.Proof.KI.Pin4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ) (hok : ok4 (F := F) (tbl m))

abbrev base (c : Dev nD) : (r : Ref sig .tc) → Buf (Elt F) ((c : Thread nD τ).loc r) := fun r => m ((c : Thread nD τ).loc r)

/-- Each region's output array at its contents after the region's last grid point. -/
def outsOf : Outs (F := F) := fun J r c =>
  match J with
  | 2 => Function.update (base m c) main_v17 ((pdats m hok (0 : Fin 5) c).arrAt 3 cfg0.N) r
  | 4 => Function.update (base m c) main_v19 ((pdats m hok (1 : Fin 5) c).arrAt 3 cfg1.N) r
  | 6 => Function.update (base m c) main_v21 ((pdats m hok (2 : Fin 5) c).arrAt 3 cfg2.N) r
  | 8 => Function.update (base m c) main_v23 ((pdats m hok (3 : Fin 5) c).arrAt 3 cfg3.N) r
  | 10 => Function.update (base m c) main_v25 ((pdats m hok (4 : Fin 5) c).arrAt (2 : Fin 3) (cfg4 (adm m hok 4)).N) r
  | _ => base m c r

theorem outsOf_0 (c : Dev nD) : outsOf m hok oidx0 oarr0 c = (pdats m hok (0 : Fin 5) c).arrAt 3 cfg0.N := by
  unfold outsOf; exact Function.update_self _ _ _
theorem outsOf_1 (c : Dev nD) : outsOf m hok oidx1 oarr1 c = (pdats m hok (1 : Fin 5) c).arrAt 3 cfg1.N := by
  unfold outsOf; exact Function.update_self _ _ _
theorem outsOf_2 (c : Dev nD) : outsOf m hok oidx2 oarr2 c = (pdats m hok (2 : Fin 5) c).arrAt 3 cfg2.N := by
  unfold outsOf; exact Function.update_self _ _ _
theorem outsOf_3 (c : Dev nD) : outsOf m hok oidx3 oarr3 c = (pdats m hok (3 : Fin 5) c).arrAt 3 cfg3.N := by
  unfold outsOf; exact Function.update_self _ _ _
theorem outsOf_4 (c : Dev nD) : outsOf m hok oidx4 oarr4 c = (pdats m hok (4 : Fin 5) c).arrAt (2 : Fin 3) (cfg4 (adm m hok 4)).N := by
  unfold outsOf; exact Function.update_self _ _ _

end Cert.KernelIdeal.Hand

end
-- ==== Proof.KI.Tail.lean ====
import proofs.«420588_j52003464020428_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable {F : FTy → Type} [FloatOps F]
variable (m : (ℓ : Loc nD τ sig) → Buf (Elt F) ℓ) (outs : Outs (F := F)) (c : Dev nD)

/-- The routing head: the mean over the sequence axis, then the affine map. -/
def taskRouting (x : (⟨S8x128x512, .f32⟩ : BufTy).Contents (Elt F)) (W : (⟨S5x512, .f32⟩ : BufTy).Contents (Elt F))
    (b : (⟨S5, .f32⟩ : BufTy).Contents (Elt F)) : (⟨S8x5, .f32⟩ : BufTy).Contents (Elt F) :=
  addf
    (Host.dotGeneral (F := F) dot_S8x512_S512x5_S8x5_1_0_0_1_n_n none
      (Host.divf (F := F)
        (Host.reduceAdd (F := F) x (constant (F := F) S_ .f32 0x00000000#32) reducesTo_S8x128x512_S8x512_d1 h_S_)
        (broadcastInDim S8x512 ![] bcast_S_S8x512 (constant (F := F) S_ .f32 0x43000000#32)))
      (transpose S512x5 [1, 0] W transposes_S5x512_S512x5_1_0))
    (broadcastInDim S8x5 ![0, 1] bcast_S1x5_S8x5_0_1 (broadcastInDim S1x5 ![1] bcast_S5_S1x5_1 b))

abbrev unfold3 (y : (⟨S1024x25000, .f32⟩ : BufTy).Contents (Elt F)) : (⟨S8x128x25000, .f32⟩ : BufTy).Contents (Elt F) :=
  shapeCast S8x128x25000 y shapeCasts_S1024x25000_S8x128x25000

theorem V3_main_v18 : (V3 m outs c main_v18 : (⟨S8x128x25000, .f32⟩ : BufTy).Contents (Elt F)) = unfold3 (outs 2 main_v17 c) := by
  dsimp only [V3, hostOps1]
  after_results
  dsimp only [V2]
  rw [Function.update_self]
  rfl

theorem V10_main_v18 : (V10 m outs c main_v18 : (⟨S8x128x25000, .f32⟩ : BufTy).Contents (Elt F)) = unfold3 (outs 2 main_v17 c) :=
  (V10_of m outs c main_v18 (by decide)).trans <| (V9_of m outs c main_v18 (by decide)).trans <|
  (V8_of m outs c main_v18 (by decide)).trans <| (V7_of m outs c main_v18 (by decide)).trans <| (V6_of m outs c main_v18 (by decide)).trans <|
  (V5_of m outs c main_v18 (by decide)).trans <| (V4_of m outs c main_v18 (by decide)).trans <| V3_main_v18 m outs c

theorem V11_main_v18 : (V11 m outs c main_v18 : (⟨S8x128x25000, .f32⟩ : BufTy).Contents (Elt F)) = unfold3 (outs 2 main_v17 c) :=
  (V11_of m outs c main_v18 (by decide)).trans (V10_main_v18 m outs c)

theorem V5_main_v20 : (V5 m outs c main_v20 : (⟨S8x128x25000, .f32⟩ : BufTy).Contents (Elt F)) = unfold3 (outs 4 main_v19 c) := by
  dsimp only [V5, hostOps2]
  after_results
  dsimp only [V4]
  rw [Function.update_self]
  rfl

theorem V11_main_v20 : (V11 m outs c main_v20 : (⟨S8x128x25000, .f32⟩ : BufTy).Contents (Elt F)) = unfold3 (outs 4 main_v19 c) :=
  (V11_of m outs c main_v20 (by decide)).trans <| (V10_of m outs c main_v20 (by decide)).trans <| (V9_of m outs c main_v20 (by decide)).trans <|
  (V8_of m outs c main_v20 (by decide)).trans <| (V7_of m outs c main_v20 (by decide)).trans <| (V6_of m outs c main_v20 (by decide)).trans <|
  V5_main_v20 m outs c

theorem V7_main_v22 : (V7 m outs c main_v22 : (⟨S8x128x25000, .f32⟩ : BufTy).Contents (Elt F)) = unfold3 (outs 6 main_v21 c) := by
  dsimp only [V7, hostOps3]
  after_results
  dsimp only [V6]
  rw [Function.update_self]
  rfl

theorem V11_main_v22 : (V11 m outs c main_v22 : (⟨S8x128x25000, .f32⟩ : BufTy).Contents (Elt F)) = unfold3 (outs 6 main_v21 c) :=
  (V11_of m outs c main_v22 (by decide)).trans <| (V10_of m outs c main_v22 (by decide)).trans <| (V9_of m outs c main_v22 (by decide)).trans <|
  (V8_of m outs c main_v22 (by decide)).trans <| V7_main_v22 m outs c

theorem V9_main_v24 : (V9 m outs c main_v24 : (⟨S8x128x25000, .f32⟩ : BufTy).Contents (Elt F)) = unfold3 (outs 8 main_v23 c) := by
  dsimp only [V9, hostOps4]
  after_results
  dsimp only [V8]
  rw [Function.update_self]
  rfl

theorem V11_main_v24 : (V11 m outs c main_v24 : (⟨S8x128x25000, .f32⟩ : BufTy).Contents (Elt F)) = unfold3 (outs 8 main_v23 c) :=
  (V11_of m outs c main_v24 (by decide)).trans <| (V10_of m outs c main_v24 (by decide)).trans <| V9_main_v24 m outs c

theorem V10_main_v25 : (V10 m outs c main_v25 : (⟨S8x128x2500, .f32⟩ : BufTy).Contents (Elt F)) = outs 10 main_v25 c := by
  dsimp only [V10]
  rw [Function.update_self]

theorem V11_main_v25 : (V11 m outs c main_v25 : (⟨S8x128x2500, .f32⟩ : BufTy).Contents (Elt F)) = outs 10 main_v25 c :=
  (V11_of m outs c main_v25 (by decide)).trans (V10_main_v25 m outs c)

/-- The merged logits at the end: the unfolded shared head beside the language head. -/
theorem V11_main_v26 : (V11 m outs c main_v26 : (⟨S8x128x27500, .f32⟩ : BufTy).Contents (Elt F))
    = concatenate S8x128x27500 2 [⟨S8x128x25000, unfold3 (outs 2 main_v17 c)⟩, ⟨S8x128x2500, outs 10 main_v25 c⟩]
        concatenates_S8x128x25000_S8x128x2500_S8x128x27500_d2 := by
  dsimp only [V11, hostOps5]
  after_results
  rw [V10_main_v18, V10_main_v25]

theorem V10_main_arg0 : V10 m outs c main_arg0 = m ((c : Thread nD τ).loc main_arg0) :=
  (V11_of m outs c main_arg0 (by decide)).symm.trans (V11_main_arg0 m outs c)
theorem V10_main_arg8 : V10 m outs c main_arg8 = m ((c : Thread nD τ).loc main_arg8) :=
  (V11_of m outs c main_arg8 (by decide)).symm.trans (V11_main_arg8 m outs c)
theorem V10_main_arg9 : V10 m outs c main_arg9 = m ((c : Thread nD τ).loc main_arg9) :=
  (V11_of m outs c main_arg9 (by decide)).symm.trans (V11_main_arg9 m outs c)

theorem V11_main_v34 : (V11 m outs c main_v34 : (⟨S8x5, .f32⟩ : BufTy).Contents (Elt F))
    = taskRouting (m ((c : Thread nD τ).loc main_arg0)) (m ((c : Thread nD τ).loc main_arg8)) (m ((c : Thread nD τ).loc main_arg9)) := by
  dsimp only [V11, hostOps5]
  after_results
  rw [V10_main_arg0, V10_main_arg8, V10_main_arg9]
  rfl

end Cert.KernelIdeal.Hand
-- ==== Proof.KI.TailIn.lean ====
import proofs.«420588_j52003464020428_2_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem

variable {F : FTy → Type} [FloatOps F]
variable (m : (ℓ : Loc nD τ sig) → Buf (Elt F) ℓ) (c : Dev nD)

theorem V1_main_v0 : (V1 m c main_v0 : (⟨S1024x512, .f32⟩ : BufTy).Contents (Elt F))
    = shapeCast S1024x512 (m ((c : Thread nD τ).loc main_arg0)) shapeCasts_S8x128x512_S1024x512 := by
  dsimp only [V1, hostOps0]
  after_results
  rfl

abbrev rowsOf (v : (⟨S8, .f32⟩ : BufTy).Contents (Elt F)) : (⟨S1024x1, .f32⟩ : BufTy).Contents (Elt F) :=
  broadcastInDim S1024x1 ![0] bcast_S1024_S1024x1_0
    (shapeCast S1024 (broadcastInDim S8x128 ![0] bcast_S8_S8x128_0 v) shapeCasts_S8x128_S1024)

theorem rowsOf_apply (v : (⟨S8, .f32⟩ : BufTy).Contents (Elt F)) (j : S1024x1.Idx) :
    rowsOf v j = v (ix1 (⟨(j 0).val / 128, by have := (j 0).isLt; have e : S1024x1.size 0 = 1024 := rfl; omega⟩ : Fin 8)) := by
  have hj : (j 0).val < 1024 := (j 0).isLt
  unfold rowsOf
  refine (broadcastInDim_apply ![0] bcast_S1024_S1024x1_0 _ j (ix1 (⟨(j 0).val, hj⟩ : Fin 1024)) (fun a => match a with
    | ⟨0, _⟩ => by show (j 0).val = if (1024 : Nat) = 1 then 0 else (j 0).val; rw [if_neg (by decide)])).trans ?_
  refine (shapeCast_apply _ shapeCasts_S8x128_S1024 _
    (ix2 (⟨(j 0).val / 128, by omega⟩ : Fin 8) (⟨(j 0).val % 128, Nat.mod_lt _ (by decide)⟩ : Fin 128)) ?_).trans ?_
  · rw [Shape.rowMajor_val_two, Shape.rowMajor_val_one]
    show (j 0).val / 128 * 128 + (j 0).val % 128 = (j 0).val
    have := Nat.div_add_mod (j 0).val 128
    omega
  · exact broadcastInDim_apply ![0] bcast_S8_S8x128_0 v _ _ (fun a => match a with
      | ⟨0, _⟩ => by show (j 0).val / 128 = if (8 : Nat) = 1 then 0 else (j 0).val / 128; rw [if_neg (by decide)])

theorem V1_main_v10 : (V1 m c main_v10 : (⟨S1024x1, .f32⟩ : BufTy).Contents (Elt F))
    = rowsOf (broadcastInDim S8 ![] bcast_S_S8 (constant (F := F) S_ .f32 0x3F800000#32)) := by
  dsimp only [V1, hostOps0]
  after_results
  rfl

abbrev taskIs (ids : (⟨S8, .i32⟩ : BufTy).Contents (Elt F)) (t : BitVec 32) : (⟨S8, .f32⟩ : BufTy).Contents (Elt F) :=
  uitofp .f32 (cmpi .eq ids (broadcastInDim S8 ![] bcast_S_S8 (constantI S_ 32 t)))

theorem V1_main_v13 : (V1 m c main_v13 : (⟨S1024x1, .f32⟩ : BufTy).Contents (Elt F))
    = rowsOf (taskIs (F := F) (m ((c : Thread nD τ).loc main_arg2)) 1#32) := by
  dsimp only [V1, hostOps0]
  after_results
  rfl

theorem V1_main_v16 : (V1 m c main_v16 : (⟨S1024x1, .f32⟩ : BufTy).Contents (Elt F))
    = rowsOf (taskIs (F := F) (m ((c : Thread nD τ).loc main_arg2)) 2#32) := by
  dsimp only [V1, hostOps0]
  after_results
  rfl

end Cert.KernelIdeal.Hand
-- ==== Proof.KB.Threads.lean ====
import proofs.«420588_j52003464020428_2_alg».proof.Proof.Gen.Kernel.Regions

/-! The thread states between the items of @main when the contents the kernel regions leave in their output arrays
    are not named: on core `c`, between two items, every unscoped buffer is held whole at the item's valuation for
    SOME choice of those contents, beside the core's generator register at some state and the core owing nothing. -/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The machine's resource algebra of this proof: no index of dues, the staging cells' rounds as the whole user part. -/
abbrev MM (F : FTy → Type) : Type := MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and the core owing
    nothing. -/
abbrev R (c : Dev nD) : sProp (MM F) :=
  iprop((∃ r, prngReg c r) ∗ ∃ W, owes (c : Thread nD τ) (0 : CellTallies nD τ sig Unit) W)

variable (m : (ℓ : Loc nD τ sig) → Buf (Elt F) ℓ)

/-- The contents every region's windows are read at: the buffers after the first host stretch (no region reads an
    array that an earlier region or a later host stretch writes). -/
abbrev VE (c : Dev nD) (b : Ref sig .tc) : Buf (Elt F) ((c : Thread nD τ).loc b) := V1 m c b

/-- Core `c` between two items: every unscoped buffer at the valuation `V outs c` for some contents `outs` of the
    regions' output arrays, beside `R c`. -/
abbrev TV (V : Outs (F := F) → (c : Dev nD) → Valuation τ sig (Elt F)) (c : Dev nD) : sProp (MM F) :=
  iprop(∃ outs : Outs (F := F), StableHlo.held (c : Thread nD τ) (Pipeline.ucRefs τ sig) (V outs c) ∗ R (F := F) c)

/-- At launch (no region has run: the valuation reads no `outs`). -/
abbrev T0 (c : Dev nD) : sProp (MM F) := TV (fun _ => V0 m) c
/-- After the first host stretch, before region 0. -/
abbrev T1 (c : Dev nD) : sProp (MM F) := TV (fun _ => V1 m) c
/-- After region 0. -/
abbrev T2 (c : Dev nD) : sProp (MM F) := TV (V2 m) c
abbrev T3 (c : Dev nD) : sProp (MM F) := TV (V3 m) c
abbrev T4 (c : Dev nD) : sProp (MM F) := TV (V4 m) c
abbrev T5 (c : Dev nD) : sProp (MM F) := TV (V5 m) c
abbrev T6 (c : Dev nD) : sProp (MM F) := TV (V6 m) c
abbrev T7 (c : Dev nD) : sProp (MM F) := TV (V7 m) c
abbrev T8 (c : Dev nD) : sProp (MM F) := TV (V8 m) c
abbrev T9 (c : Dev nD) : sProp (MM F) := TV (V9 m) c
abbrev T10 (c : Dev nD) : sProp (MM F) := TV (V10 m) c
/-- After the last host stretch. -/
abbrev T11 (c : Dev nD) : sProp (MM F) := TV (V11 m) c

end Cert.Kernel.Hand

end
-- ==== Proof.KB.Adm.lean ====
import proofs.«420588_j52003464020428_2_alg».proof.Proof.Gen.Kernel.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The language ids as the launch memory holds them. -/
def tbl : pre4.Contents (Elt F) := fun k => m (((0 : Dev nD) : Thread nD τ).loc (pre4.ref k))

theorem V1_pre (c : Dev nD) (k : Fin 1) : V1 m c (pre4.ref k) = tbl m k := by
  obtain rfl : c = 0 := Subsingleton.elim _ _
  obtain rfl : k = 0 := Subsingleton.elim _ _
  exact (V1_of m 0 main_arg1 (by decide)).trans rfl

/-- The admissible table contents, pipeline by pipeline: only the language head has a table. -/
def adm (hok : ok4 (F := F) (tbl m)) : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => cfg3.toPCfg_adm
  | ⟨4, _⟩ => ⟨tbl m, hok⟩
  | ⟨_ + 5, h⟩ => absurd h (Nat.not_lt.2 (Nat.le_add_left _ _))

variable (hok : ok4 (F := F) (tbl m))

end Cert.Kernel.Hand
-- ==== Proof.KB.Ids.lean ====
import proofs.«420588_j52003464020428_2_alg».proof.Proof.KB.Adm
import proofs.«420588_j52003464020428_2_alg».proof.Pre_finite_inputs
import Idealize.ShloMosaic.Lib.ReduceAll

noncomputable section

namespace Cert.Kernel.Hand

open Cert.Kernel Cert.Kernel.Gen
open Idealize.ShloMosaic Idealize.ShloMosaic.TcCoe Idealize.SL.Sem

variable {F : FTy → Type} [FloatOps F]
variable [Cert.Pre_finite_inputs.Facts]
variable (m : (ℓ : Loc nD τ sig) → Buf (Elt F) ℓ)

def PreM : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) = (fun _ => 1#1)

instance subsingleton_scalarIdx : Subsingleton Cert.Pre_finite_inputs.S_.Idx := ⟨fun a b => funext fun d => d.elim0⟩

/-- A word with 0 ≤ w and w < n as signed words, n small, is below n as a natural number: the first test clears the sign bit. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, BitVec.toInt_eq_toNat_of_lt h0,
    BitVec.toInt_eq_toNat_of_lt (by rw [BitVec.toNat_ofNat]; omega), BitVec.toNat_ofNat] at h1
  omega

/-- The precondition's last conjunct, decoded: every language id is in [0, 6). -/
theorem ids_lt (h : PreM m) (x : S8.Idx) : (m (((0 : Dev nD) : Thread nD τ).loc main_arg1) x).toNat < 6 := by
  have e := congrFun (h 0) (fun a => a.elim0)
  have e2 := (IntOp.andi_eq_one.1 e).2
  have e3 := Host.reduce_andi_all _ _ _ _ _ e2 x
  obtain ⟨h0, h6⟩ := IntOp.andi_eq_one.1 e3
  exact toNat_lt_of_signed _ 6 (by decide) h0 h6

/-- With every id below six the selected slab lies inside the six slabs of the weights. -/
theorem ok4_of_lt (pf : pre4.Contents (Elt F)) (hl : ∀ x, (pf 0 x).toNat < 6) : ok4 (F := F) pf := by
  intro i
  refine ⟨fun a => ?_, Or.inl rfl⟩
  match a with
  | ⟨0, _⟩ =>
    show ((pf 0 _).toNat + 1) * 1 ≤ 6
    rw [Nat.mul_one]
    exact hl _
  | ⟨1, _⟩ => show ((0#32 : BitVec 32).toNat + 1) * 2500 ≤ 2500; decide
  | ⟨2, _⟩ => show ((0#32 : BitVec 32).toNat + 1) * 512 ≤ 512; decide

theorem ok4_of_pre (h : PreM m) : ok4 (F := F) (tbl m) :=
  ok4_of_lt (tbl m) fun x => ids_lt m h x

end Cert.Kernel.Hand
-- ==== Proof.KB.Dat0.lean ====
import proofs.«420588_j52003464020428_2_alg».proof.Proof.Gen.Kernel.Launch
import proofs.«420588_j52003464020428_2_alg».proof.Proof.Gen.Kernel.Skeleton
import proofs.«420588_j52003464020428_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x512 := Rect.unit (s := S1024x512) ![0, 0] S1024x512.size inb_S1024x512_S1024x512_0_0
abbrev r0_1 : Rect S1024x1 := Rect.unit (s := S1024x1) ![0, 0] S1024x1.size inb_S1024x1_S1024x1_0_0
abbrev r0_2 : Rect S1280x512 := Rect.unit (s := S1280x512) ![0, 0] S1280x512.size inb_S1280x512_S1280x512_0_0
abbrev r0_3 : Rect S1024x1280 := Rect.unit (s := S1024x1280) ![0, 0] S1024x1280.size inb_S1024x1280_S1024x1280_0_0

/-- What the body leaves in the output block: the rows of the first operand against the rows of the third, each scaled by its entry of the second. The four heads run one body, so one name serves them all. -/
def out0_3 (x0 : Vec F S1024x512 .f32) (x1 : Vec F S1024x1 .f32) (x2 : Vec F S1280x512 .f32) : Vec F S1024x1280 .f32 :=
  View.canon [⟨r0_3, k0_pay1 (View.ld x0 r0_0) (View.ld x2 r0_2) (View.ld x1 r0_1)⟩]

def wblk0 (c : Dev nD) (t : Fin cfg0.N) : S1280x512.Idx → Elt F .f32 :=
  (cfg0.win 2).fill (grid0.coords t) (fun _ => Scalar.ofBits .f32 0#32) (iblk0 V c 2 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => wblk0 V c t
    | ⟨3, _⟩ => out0_3 (iblk0 V c 0 t) (iblk0 V c 1 t) (wblk0 V c t)
  Φ _ := Pipeline.ΦA spec0 c
  q _ := fullShare
  owed _ := 0

end Cert.Kernel.Hand

end
-- ==== Proof.KB.Dat1.lean ====
import proofs.«420588_j52003464020428_2_alg».proof.Proof.Gen.Kernel.Launch
import proofs.«420588_j52003464020428_2_alg».proof.Proof.Gen.Kernel.Skeleton
import proofs.«420588_j52003464020428_2_alg».proof.Proof.Gen.Kernel.Points
import proofs.«420588_j52003464020428_2_alg».proof.Proof.KB.Dat0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def wblk1 (c : Dev nD) (t : Fin cfg1.N) : S1280x512.Idx → Elt F .f32 :=
  (cfg1.win 2).fill (grid1.coords t) (fun _ => Scalar.ofBits .f32 0#32) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => wblk1 V c t
    | ⟨3, _⟩ => out0_3 (iblk1 V c 0 t) (iblk1 V c 1 t) (wblk1 V c t)
  Φ _ := Pipeline.ΦA spec1 c
  q _ := fullShare
  owed _ := 0

end Cert.Kernel.Hand

end
-- ==== Proof.KB.Dat2.lean ====
import proofs.«420588_j52003464020428_2_alg».proof.Proof.Gen.Kernel.Launch
import proofs.«420588_j52003464020428_2_alg».proof.Proof.Gen.Kernel.Skeleton
import proofs.«420588_j52003464020428_2_alg».proof.Proof.Gen.Kernel.Points
import proofs.«420588_j52003464020428_2_alg».proof.Proof.KB.Dat0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def wblk2 (c : Dev nD) (t : Fin cfg2.N) : S1280x512.Idx → Elt F .f32 :=
  (cfg2.win 2).fill (grid2.coords t) (fun _ => Scalar.ofBits .f32 0#32) (iblk2 V c 2 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => wblk2 V c t
    | ⟨3, _⟩ => out0_3 (iblk2 V c 0 t) (iblk2 V c 1 t) (wblk2 V c t)
  Φ _ := Pipeline.ΦA spec2 c
  q _ := fullShare
  owed _ := 0

end Cert.Kernel.Hand

end
-- ==== Proof.KB.Dat3.lean ====
import proofs.«420588_j52003464020428_2_alg».proof.Proof.Gen.Kernel.Launch
import proofs.«420588_j52003464020428_2_alg».proof.Proof.Gen.Kernel.Skeleton
import proofs.«420588_j52003464020428_2_alg».proof.Proof.Gen.Kernel.Points
import proofs.«420588_j52003464020428_2_alg».proof.Proof.KB.Dat0
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def wblk3 (c : Dev nD) (t : Fin cfg3.N) : S1280x512.Idx → Elt F .f32 :=
  (cfg3.win 2).fill (grid3.coords t) (fun _ => Scalar.ofBits .f32 0#32) (iblk3 V c 2 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => wblk3 V c t
    | ⟨3, _⟩ => out0_3 (iblk3 V c 0 t) (iblk3 V c 1 t) (wblk3 V c t)
  Φ _ := Pipeline.ΦA spec3 c
  q _ := fullShare
  owed _ := 0

end Cert.Kernel.Hand

end
-- ==== Proof.KB.Dat4.lean ====
/-
  The per-sample language head's region: after the body at sample b the staging buffers hold that sample's hidden states, the
  weight matrix of the sample's language (the block the table's entry selects) and their product.
-/
import proofs.«420588_j52003464020428_2_alg».proof.Proof.Gen.Kernel.Launch
import proofs.«420588_j52003464020428_2_alg».proof.Proof.Gen.Kernel.Skeleton
import proofs.«420588_j52003464020428_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The language head (pipeline 4): its proof data at admissible table contents `a` and entry contents `V`

The pipeline's second window is indexed through the prefetched table; everything here is stated at a
variable `a` of admissible contents, so that no fact depends on what the table holds. -/

variable (a : (pcfg4 (F := F)).Adm)
variable (V : (c : Dev nD) → (b : Ref sig .tc) → Buf (Elt F) ((c : Thread nD τ).loc b))

/-- Window `w`'s block at point `t`, read off its array as the region finds it (`V`). -/
def iblk4 (c : Dev nD) (w : Fin (cfg4 a).W) (t : Fin (cfg4 a).N) :
    (((cfg4 a).win w).xblock ((cfg4 a).grid.coords t)).Idx → Elt F ((cfg4 a).win w).elt :=
  (((cfg4 a).win w).blk t).view.read (Elt F) (V c (Pipeline.arrRef spec4 w))

/-- The one rectangle the body stores: the whole output block. -/
abbrev r4_0 : Rect S1x128x2500 := Rect.unit (s := S1x128x2500) ![0, 0, 0] S1x128x2500.size inb_S1x128x2500_S1x128x2500_0_0_0

/-- The output window's staging buffer after the body, from the two input blocks: its one store, whose payload
    is the product of the (rounded) activations block with the (rounded) selected weight slab. -/
def out4_2 (x0 : Vec F S1x128x512 .f32) (x1 : Vec F S1x2500x512 .f32) : Vec F S1x128x2500 .f32 :=
  View.canon [⟨r4_0, k4_pay1 x0 x1⟩]

/-- The invariant the body passes through unread: the scoped buffers that are no staging buffer of this
    pipeline, the generator register, and the prefetched table, whole, at the admissible contents. -/
def Φ4 (c : Dev nD) : sProp 𝕄 :=
  iprop(Pipeline.ΦA spec4 c ∗ Pipeline.prefHeld pre4 c (fun _ => fullShare) a.1)

/-- The proof data of pipeline 4 on core `c`: the arrays as the region finds them (`V`); after the body at
    point `t` each input's buffer at its block and the output's at `out4_2` of the input blocks; nothing owed;
    full shares. -/
def dat4 (c : Dev nD) : Dat τ (Elt F) Unit ℕ (UR sig nD τ) ℕ (cfg4 a) c where
  A w := V c (Pipeline.arrRef spec4 w)
  after w t := match w with
    | ⟨0, _⟩ => iblk4 a V c 0 t
    | ⟨1, _⟩ => iblk4 a V c 1 t
    | ⟨2, _⟩ => out4_2 (iblk4 a V c 0 t) (iblk4 a V c 1 t)
  Φ _ := Φ4 a c
  q _ := fullShare
  owed _ := 0

end Cert.Kernel.Hand

end
-- ==== Proof.KB.Pdats.lean ====
import proofs.«420588_j52003464020428_2_alg».proof.Proof.KB.Threads
import proofs.«420588_j52003464020428_2_alg».proof.Proof.KB.Adm
import proofs.«420588_j52003464020428_2_alg».proof.Proof.KB.Dat0
import proofs.«420588_j52003464020428_2_alg».proof.Proof.KB.Dat1
import proofs.«420588_j52003464020428_2_alg».proof.Proof.KB.Dat2
import proofs.«420588_j52003464020428_2_alg».proof.Proof.KB.Dat3
import proofs.«420588_j52003464020428_2_alg».proof.Proof.KB.Dat4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

variable (m : (ℓ : Loc nD τ sig) → Buf (Elt F) ℓ) (hok : ok4 (F := F) (tbl m))

/-- Every region's proof data, stated at the arrays' contents after the first host operations. -/
def pdats : (p : Fin 5) → (c : Dev nD) → Dat τ (Elt F) Unit ℕ (UR sig nD τ) ℕ (Pipeline.pin (pcfgs (F := F)) (adm m hok) p) c
  | ⟨0, _⟩ => fun c => dat0 (VE m) c
  | ⟨1, _⟩ => fun c => dat1 (VE m) c
  | ⟨2, _⟩ => fun c => dat2 (VE m) c
  | ⟨3, _⟩ => fun c => dat3 (VE m) c
  | ⟨4, _⟩ => fun c => dat4 (adm m hok 4) (VE m) c

end Cert.Kernel.Hand

end
-- ==== Proof.KB.RRegAux.lean ====
import proofs.«420588_j52003464020428_2_alg».proof.Proof.Gen.Kernel.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

local notation "𝕄" => MT nD τ sig Unit (Elt F) ℕ (UR sig nD τ) ℕ

theorem arraysAt_toRForget {cfg : Pipeline.Cfg sig Λ₀} {c : Dev nD} (dat : Dat τ (Elt F) Unit ℕ (UR sig nD τ) ℕ cfg c)
    (fgt : Fin cfg.W → Bool) (n : Nat) :
    ((dat.toRForget fgt).arraysAt n : sProp 𝕄)
      ⊢ iprop(∃ Fs : (w : Fin cfg.W) → Buf (Elt F) ((cfg.win w).arr.view.loc (c.tc : Thread nD τ)),
          ⌜∀ w, fgt w = false → Fs w = dat.arrAt w n⌝ ∗ dat.arrays Fs) := by
  classical
  unfold RDat.arraysAt
  iintro Ha
  ihave Ha' := (BI.bigSep_exists_pi Finset.univ (fun w G => iprop(⌜(dat.toRForget fgt).ArrAt w n G⌝
      ∗ (cfg.win w).arr.view.loc (c.tc : Thread nD τ) ↦[(cfg.win w).arr.view.set]{(dat.toRForget fgt).share w} G))) $$ Ha
  icases Ha' with ⟨%Fs, Ha⟩
  ihave Ha2 := (BI.bigSep_pure_sep Finset.univ (fun w => (dat.toRForget fgt).ArrAt w n (Fs w))
      (fun w => (cfg.win w).arr.view.loc (c.tc : Thread nD τ) ↦[(cfg.win w).arr.view.set]{(dat.toRForget fgt).share w} Fs w)) $$ Ha
  icases Ha2 with ⟨%hFs, Ha⟩
  iexists Fs
  isplitr
  · ipureintro; intro w hw; exact (dat.toRForget_arrAt_iff hw n (Fs w)).mp (hFs w (Finset.mem_univ w))
  · unfold Dat.arrays; iexact Ha

def setOuts (J : ℕ) (c : Dev nD) (X : (r : Ref sig .tc) → Buf (Elt F) ((c : Thread nD τ).loc r)) (outs : Outs (F := F)) : Outs (F := F) :=
  fun j r c' => if j = J then (Subsingleton.elim c c' ▸ X r) else outs j r c'

theorem setOuts_same (J : ℕ) (c : Dev nD) (X : (r : Ref sig .tc) → Buf (Elt F) ((c : Thread nD τ).loc r)) (outs : Outs (F := F))
    (r : Ref sig .tc) : setOuts J c X outs J r c = X r := by
  unfold setOuts; rw [if_pos rfl]

end Cert.Kernel.Hand

end
-- ==== Proof.KB.RRegData.lean ====
import proofs.«420588_j52003464020428_2_alg».proof.Proof.KB.Pdats
import proofs.«420588_j52003464020428_2_alg».proof.Proof.KB.RRegAux

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

variable (m : (ℓ : Loc nD τ sig) → Buf (Elt F) ℓ)

variable (hok : ok4 (F := F) (tbl m))

abbrev fgt0 : Fin 4 → Bool := fun w => decide (w = 3)
abbrev fgt1 : Fin 4 → Bool := fun w => decide (w = 3)
abbrev fgt2 : Fin 4 → Bool := fun w => decide (w = 3)
abbrev fgt3 : Fin 4 → Bool := fun w => decide (w = 3)
abbrev fgt4 : Fin 3 → Bool := fun w => decide (w = 2)

def rdats : (p : Fin 5) → (c : Dev nD) → RDat τ (Elt F) Unit ℕ (UR sig nD τ) ℕ (Pipeline.pin (pcfgs (F := F)) (adm m hok) p) c
  | ⟨0, _⟩ => fun c => (pdats m hok (0 : Fin 5) c).toRForget fgt0
  | ⟨1, _⟩ => fun c => (pdats m hok (1 : Fin 5) c).toRForget fgt1
  | ⟨2, _⟩ => fun c => (pdats m hok (2 : Fin 5) c).toRForget fgt2
  | ⟨3, _⟩ => fun c => (pdats m hok (3 : Fin 5) c).toRForget fgt3
  | ⟨4, _⟩ => fun c => (pdats m hok (4 : Fin 5) c).toRForget fgt4
  | ⟨_ + 5, h⟩ => absurd h (Nat.not_lt.2 (Nat.le_add_left _ _))

end Cert.Kernel.Hand

end
-- ==== Proof.KB.RRegOf.lean ====
import proofs.«420588_j52003464020428_2_alg».proof.Proof.KB.RRegData
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)

variable {F : FTy → Type} [FloatOps F]

variable (m : (ℓ : Loc nD τ sig) → Buf (Elt F) ℓ) (hok : ok4 (F := F) (tbl m)) (p : Fin 5)

/-- Pipeline `p` at the admissible tables. -/
abbrev cfgOf : Pipeline.Cfg sig Λ₀ := Pipeline.pin (pcfgs (F := F)) (adm m hok) p

variable (o : Fin (cfgOf m hok p).W) (Vin : Outs (F := F) → (c : Dev nD) → Valuation τ sig (Elt F)) (oidx : ℕ)

/-- The array of the output window `o`. -/
abbrev oarrOf : Ref sig .tc := Pipeline.arrRef (cfgOf m hok p).spec o

/-- The valuation the region leaves: the one it is entered from, the output array at `outs oidx`. -/
abbrev VoutOf (outs : Outs (F := F)) (c : Dev nD) : Valuation τ sig (Elt F) :=
  Function.update (Vin outs c) (oarrOf m hok p o) (outs oidx (oarrOf m hok p o) c)

/-- `outs` with item `oidx` replaced by the entry valuation updated to `x` at the output array. -/
def routs (outs : Outs (F := F)) (c : Dev nD) (x : Buf (Elt F) ((c : Thread nD τ).loc (oarrOf m hok p o))) : Outs (F := F) :=
  setOuts oidx c (fun r => Function.update (Vin outs c) (oarrOf m hok p o) x r) outs

variable (hVin : ∀ outs c X, Vin (setOuts oidx c X outs) c = Vin outs c)
include hVin

theorem Vout_routs_arr (outs : Outs (F := F)) (c : Dev nD) (x : Buf (Elt F) ((c : Thread nD τ).loc (oarrOf m hok p o))) :
    VoutOf m hok p o Vin oidx (routs m hok p o Vin oidx outs c x) c (oarrOf m hok p o) = x := by
  unfold VoutOf routs; rw [Function.update_self, setOuts_same, Function.update_self]

theorem Vout_routs_ne (outs : Outs (F := F)) (c : Dev nD) (x : Buf (Elt F) ((c : Thread nD τ).loc (oarrOf m hok p o))) (r : Ref sig .tc)
    (h : r ≠ oarrOf m hok p o) : VoutOf m hok p o Vin oidx (routs m hok p o Vin oidx outs c x) c r = Vin outs c r := by
  unfold VoutOf; rw [Function.update_of_ne (StableHlo.devRef_ne_of_ne h)]; exact congrFun (hVin outs c _) _

variable (la : Pipeline.PLaunchFacts (nD := nD) (τ := τ) (pcfgs (F := F)) p)
  (hrd : ∀ c, rdats m hok p c = (pdats m hok p c).toRForget fun w => decide (w = o))
  (hio : ∀ w, w ≠ o → ((cfgOf m hok p).win w).isOut = false)
  (hq : ∀ c w, (pdats m hok p c).q w = fullShare)
  (hA : ∀ outs c w, (pdats m hok p c).A w = Vin outs c (Pipeline.arrRef (cfgOf m hok p).spec w))

include la hio hA in
/-- At the exit an input array holds its entry contents (it is never written, and is not the output array). -/
theorem exit_arrays (outs : Outs (F := F)) (c : Dev nD)
    (Fs : (w : Fin (cfgOf m hok p).W) → Buf (Elt F) (((cfgOf m hok p).win w).arr.view.loc (c.tc : Thread nD τ)))
    (hFs : ∀ w, decide (w = o) = false → Fs w = (pdats m hok p c).arrAt w (cfgOf m hok p).N) (w : Fin (cfgOf m hok p).W) :
    Fs w = VoutOf m hok p o Vin oidx (routs m hok p o Vin oidx outs c (Fs o)) c (Pipeline.arrRef (cfgOf m hok p).spec w) := by
  by_cases hw : w = o
  · subst hw; exact (Vout_routs_arr m hok p w Vin oidx hVin outs c (Fs w)).symm
  · rw [hFs w (decide_eq_false hw), (pdats m hok p c).arrAt_in w (hio w hw), hA outs c w]
    exact (Vout_routs_ne m hok p o Vin oidx hVin outs c (Fs o) _ (la.win.arr_inj.ne hw)).symm

variable (hbody : ∀ c, (rdats m hok p c).BodyObligation (defs₀ (F := F)) 𝒱₀ () Set.univ)
  (hpre : (pcfgs (F := F) p).pre.K = 0)
  (hΦ : ∀ c t, (pdats m hok p c).Φ t = Pipeline.ΦA (cfgOf m hok p).spec c)
  (howed : ∀ c t, (pdats m hok p c).owed t = 0)
  (hrec : ∀ c, (pdats m hok p c).recorded 0 = Set.univ)

/-- Region `p` between thread states that leave the output contents unnamed: the exit renames them at item `oidx`. -/
def rregOf : Pipeline.RDat.RegionSeg (pcfgs (F := F)) (adm m hok) (rdats m hok) () defs₀ 𝒱₀ L lv p where
  win := la.win.to₀
  block_pos := la.block_pos
  stage_whole := la.stage_whole
  K := PEmpty
  osem k := k.elim
  ho := Pipeline.OwnSemFacts.none _
  hbody := hbody
  hwaits := Pipeline.RDat.hwaits_of_owed_zero _ _ _ _ L lv p fun c t => by rw [hrd c]; exact howed c t
  pre c := TV Vin c
  post c := TV (VoutOf m hok p o Vin oidx) c
  X c := iprop(∃ r, prngReg c r)
  Y c := iprop(∃ r, prngReg c r)
  Z c := iprop(∃ outs : Outs (F := F), Pipeline.unscopedRest (Ix := Unit) (Name := ℕ) (U := UR sig nD τ) (Lvl := ℕ) (cfgOf m hok p).spec c (fun b => Vin outs c b))
  hentry c := by
    rw [Pipeline.ownSems0_none, hrd c]
    iintro ⟨⟨%outs, Hub, Hp, HO⟩, -, -⟩
    have hsplit := Pipeline.RDat.arrays_of_unscopedBufs (p := p) (pcfgs (F := F)) (adm m hok) (rdats m hok) la.win la.arr_whole c
      (fun w => by rw [hrd c]; exact (pdats m hok p c).share_full (hq c) w) (fun b => Vin outs c b) fun w => by rw [hrd c]; exact hA outs c w
    rw [Pipeline.unscopedBufs_held, hrd c] at hsplit
    ihave H := hsplit $$ Hub
    icases H with ⟨Ha, Hrest⟩
    imodintro
    isplitl [Ha]; · iexact Ha
    isplitr
    · unfold Pipeline.prefHeld
      haveI : IsEmpty (Fin (pcfgs (F := F) p).pre.K) := hpre ▸ Fin.isEmpty'
      rw [Finset.univ_eq_empty, BI.bigSep_empty]; iempintro
    isplitl [HO]
    · unfold Pipeline.RDat.owesAt Pipeline.owesWithin
      icases HO with ⟨%W, HO⟩; iexists W; isplitr; · ipureintro; exact fun _ _ => Or.inl ((hrec c).ge trivial)
      rw [Dat.toRForget_owed, howed]; iexact HO
    isplitl [Hp]; · iexact Hp
    iexists outs; iexact Hrest
  hin c := by
    rw [hrd c, Dat.toRForget_Φ, hΦ]; unfold Pipeline.ΦA
    iintro ⟨Hp, -, Hr⟩
    isplitl [Hr]; · iexact Hr
    iexact Hp
  hout c := by
    rw [Pipeline.ownSems0_none, hrd c, Dat.toRForget_Φ, hΦ]; unfold Pipeline.ΦA
    iintro ⟨Hr, Hp⟩
    isplitl [Hp]; · iexact Hp
    isplitr; · iempintro
    iexact Hr
  hexit c := by
    rw [hrd c]
    iintro ⟨Ha, HO, HY, HZ⟩
    icases HZ with ⟨%outs, Hrest⟩
    ihave Ha' := arraysAt_toRForget (pdats m hok p c) (fun w => decide (w = o)) (cfgOf m hok p).N $$ Ha
    icases Ha' with ⟨%Fs, %hFs, Ha⟩
    have hjoin := Pipeline.unscopedBufs_of_arrays (p := p) (pcfgs (F := F)) (adm m hok) (Ix := Unit) (Name := ℕ) (U := UR sig nD τ) (Lvl := ℕ)
      la.win la.arr_whole c (pdats m hok) ((pdats m hok p c).share_full (hq c))
      (fun b => Vin outs c b) (fun b => VoutOf m hok p o Vin oidx (routs m hok p o Vin oidx outs c (Fs o)) c b) Fs
      (exit_arrays m hok p o Vin oidx hVin la hio hA outs c Fs hFs)
      fun b hb => Vout_routs_ne m hok p o Vin oidx hVin outs c (Fs o) b fun e => hb (Finset.mem_image.mpr ⟨o, Finset.mem_univ _, e.symm⟩)
    rw [Pipeline.unscopedBufs_held] at hjoin
    imodintro
    iexists routs m hok p o Vin oidx outs c (Fs o)
    isplitl [Ha Hrest]
    · iapply hjoin; isplitl [Ha] <;> iassumption
    isplitl [HY]; · iexact HY
    unfold Pipeline.RDat.owesAt Pipeline.owesWithin
    icases HO with ⟨%W, -, HO⟩; iexists W
    rw [Dat.toRForget_owed, howed]; iexact HO

end Cert.Kernel.Hand

end
-- ==== Proof.KB.Pin0.lean ====
import proofs.«420588_j52003464020428_2_alg».proof.Proof.KB.Threads

noncomputable section

namespace Cert.Kernel.Hand

open Cert.Kernel Cert.Kernel.Gen
open Idealize.ShloMosaic Idealize.ShloMosaic.TcCoe
open Idealize.SL Idealize.SL.BI

variable {F : FTy → Type} [FloatOps F]

/-- Region 0 is entered from `Vin0`; what it leaves in its output array is item `oidx0` of the unknown contents. -/
abbrev Vin0 (m : (ℓ : Loc nD τ sig) → Buf (Elt F) ℓ) (outs : Outs (F := F)) (c : Dev nD) : Valuation τ sig (Elt F) := V1 m c
abbrev oidx0 : ℕ := 2

variable (m : (ℓ : Loc nD τ sig) → Buf (Elt F) ℓ) (outs : Outs (F := F))

/-- No item before the region writes one of its windows' arrays. -/
theorem Vin0_arr (c : Dev nD) (w : Fin 4) : Vin0 m outs c (Pipeline.arrRef spec0 w) = VE m c (Pipeline.arrRef spec0 w) := rfl

end Cert.Kernel.Hand

end
-- ==== Proof.KB.Body0.lean ====
import proofs.«420588_j52003464020428_2_alg».proof.Proof.KB.Dat0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

theorem cover0_3 (p0 : Vec F S1024x1280 .f32) (y : S1024x1280.Idx) :
    ∃ pc ∈ ([⟨r0_3, p0⟩] : List (View.Piece (Elt F) S1024x1280 .f32)), y ∈ pc.1.set :=
  View.cover_of_tiled [⟨r0_3, p0⟩] S1024x1280.size (by rfl) y

set_option maxHeartbeats 1000000 in
/-- The body reads its three inputs whole and stores the output whole: it ends with the inputs as found and the output at `out0_3` of them. -/
theorem sound_kernel0 (c : Dev nD) (E : Set ℕ) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S1280x512 .f32) (harg3 : arg3.IsWhole)
    (arg4 : Memref sig .tc .vmem S1024x1280 .f32) (harg4 : arg4.IsWhole)
    (x0 : Vec F S1024x512 .f32) (x1 : Vec F S1024x1 .f32) (x2 : Vec F S1280x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__masked_linear_kernel i arg1 harg1 arg2 harg2 arg3 harg3 arg4 harg4) K := by
  simp only [cc0__masked_linear_kernel_eq_skeleton]; unfold cc0__masked_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = wblk0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) :
    (dat0 V c).before 2 t d = (cfg0.win 2).fill (grid0.coords t) d (iblk0 V c 2 t) := by
  unfold Dat.before; rw [if_pos (fetch0_2 t)]
  unfold Dat.fetched Dat.blockOf iblk0; rw [A_eq0]; try rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ X, owns (c : Thread nD τ) (st0_3 t) fullShare X))

def bodyPostF0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ d, owns (c : Thread nD τ) (st0_2 t) fullShare
        ((cfg0.win 2).fill (grid0.coords t) d ((cfg0.win 2).cut (grid0.coords t) ((dat0 V c).after 2 t))))
    ∗ (∃ X, owns (c : Thread nD τ) (st0_3 t) fullShare X))

/-- At a grid point the body runs on the three input blocks and hands the weights' block back as found. -/
theorem sound_bodyF0 (c : Dev nD) (t : Fin cfg0.N) :
    bodyPre0 V c t ⊢ wp frame (wpE (defs₀ (F := F)) Variants.none c none) Set.univ (bodyAt0 t) (fun _ => bodyPostF0 V c t) := by
  unfold bodyPre0 bodyPostF0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩, ⟨%X3, H3⟩⟩
  iapply (sound_kernel0 c Set.univ _ _ _ _ _ _ _ _ _ (iblk0 V c 0 t) (iblk0 V c 1 t)
    ((cfg0.win 2).fill (grid0.coords t) d2 (iblk0 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg0.win 2).cut (grid0.coords t) (wblk0 V c t) = iblk0 V c 2 t from (cfg0.win 2).cut_fill _ _ _]
    iexact H2
  · iexists _; iexact H3

theorem body_obligation0_fgt (c : Dev nD) :
    BodyObligationLoose (dat0 (F := F) V c) (defs₀ (F := F)) Variants.none () Set.univ (fun w => decide (w = 3)) := fun t => by
  rw [bigSep_W0, bigSep_W0]
  exact sound_bodyF0 V c t

end Cert.Kernel.Hand

end
-- ==== Proof.KB.RReg0.lean ====
import proofs.«420588_j52003464020428_2_alg».proof.Proof.KB.RRegOf
import proofs.«420588_j52003464020428_2_alg».proof.Proof.KB.Pin0
import proofs.«420588_j52003464020428_2_alg».proof.Proof.KB.Body0

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hok : ok4 (F := F) (tbl m))

/-- Region 0: three input windows, and the output window whose contents are item `oidx0` of the unknown ones. -/
def rreg0 : Pipeline.RDat.RegionSeg (pcfgs (F := F)) (adm m hok) (rdats m hok) () defs₀ 𝒱₀ L lv (0 : Fin 5) :=
  rregOf m hok 0 (3 : Fin 4) (Vin0 m) oidx0 (fun _ _ _ => rfl) launch0 (fun _ => rfl)
    (by decide : ∀ w : Fin 4, w ≠ 3 → (cfg0.win w).isOut = false) (fun _ _ => rfl)
    (fun outs c w => (Vin0_arr m outs c w).symm) (fun c => (body_obligation0_fgt (VE m) c).toRForget) rfl (fun _ _ => rfl)
    (fun _ _ => rfl) fun _ => rfl

end Cert.Kernel.Hand

end
-- ==== Proof.KB.Pin1.lean ====
import proofs.«420588_j52003464020428_2_alg».proof.Proof.KB.Threads

noncomputable section

namespace Cert.Kernel.Hand

open Cert.Kernel Cert.Kernel.Gen
open Idealize.ShloMosaic Idealize.ShloMosaic.TcCoe
open Idealize.SL Idealize.SL.BI

variable {F : FTy → Type} [FloatOps F]

/-- Region 1 is entered from `Vin1`; what it leaves in its output array is item `oidx1` of the unknown contents. -/
abbrev Vin1 (m : (ℓ : Loc nD τ sig) → Buf (Elt F) ℓ) (outs : Outs (F := F)) (c : Dev nD) : Valuation τ sig (Elt F) := V3 m outs c
abbrev oidx1 : ℕ := 4

variable (m : (ℓ : Loc nD τ sig) → Buf (Elt F) ℓ) (outs : Outs (F := F))

/-- No item before the region writes one of its windows' arrays. -/
theorem Vin1_arr (c : Dev nD) : ∀ w : Fin 4, Vin1 m outs c (Pipeline.arrRef spec1 w) = VE m c (Pipeline.arrRef spec1 w)
  | 0 | 1 | 2 | 3 => (V3_of m outs c _ (by decide)).trans <| (V2_of m outs c _ (by decide)).trans <| rfl

end Cert.Kernel.Hand

end
-- ==== Proof.KB.Body1.lean ====
import proofs.«420588_j52003464020428_2_alg».proof.Proof.KB.Dat1
import proofs.«420588_j52003464020428_2_alg».proof.Proof.KB.Body0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The four heads run one body. -/
theorem cc1_eq : @cc1__masked_linear_kernel = @cc0__masked_linear_kernel := rfl

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = wblk1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) :
    (dat1 V c).before 2 t d = (cfg1.win 2).fill (grid1.coords t) d (iblk1 V c 2 t) := by
  unfold Dat.before; rw [if_pos (fetch1_2 t)]
  unfold Dat.fetched Dat.blockOf iblk1; rw [A_eq1]; try rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

def bodyPostF1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ d, owns (c : Thread nD τ) (st1_2 t) fullShare
        ((cfg1.win 2).fill (grid1.coords t) d ((cfg1.win 2).cut (grid1.coords t) ((dat1 V c).after 2 t))))
    ∗ (∃ X, owns (c : Thread nD τ) (st1_3 t) fullShare X))

/-- At a grid point the body runs on the three input blocks and hands the weights' block back as found. -/
theorem sound_bodyF1 (c : Dev nD) (t : Fin cfg1.N) :
    bodyPre1 V c t ⊢ wp frame (wpE (defs₀ (F := F)) Variants.none c none) Set.univ (bodyAt1 t) (fun _ => bodyPostF1 V c t) := by
  unfold bodyPre1 bodyPostF1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, cc1_eq]
  iintro ⟨HΦ, Ho, ⟨%d0, H0⟩, ⟨%d1, H1⟩, ⟨%d2, H2⟩, ⟨%X3, H3⟩⟩
  iapply (sound_kernel0 c Set.univ _ _ _ _ _ _ _ _ _ (iblk1 V c 0 t) (iblk1 V c 1 t)
    ((cfg1.win 2).fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg1.win 2).cut (grid1.coords t) (wblk1 V c t) = iblk1 V c 2 t from (cfg1.win 2).cut_fill _ _ _]
    iexact H2
  · iexists _; iexact H3

theorem body_obligation1_fgt (c : Dev nD) :
    BodyObligationLoose (dat1 (F := F) V c) (defs₀ (F := F)) Variants.none () Set.univ (fun w => decide (w = 3)) := fun t => by
  rw [bigSep_W1, bigSep_W1]
  exact sound_bodyF1 V c t

end Cert.Kernel.Hand

end
-- ==== Proof.KB.RReg1.lean ====
import proofs.«420588_j52003464020428_2_alg».proof.Proof.KB.RRegOf
import proofs.«420588_j52003464020428_2_alg».proof.Proof.KB.Pin1
import proofs.«420588_j52003464020428_2_alg».proof.Proof.KB.Body1

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hok : ok4 (F := F) (tbl m))

/-- Region 1: three input windows, and the output window whose contents are item `oidx1` of the unknown ones. -/
def rreg1 : Pipeline.RDat.RegionSeg (pcfgs (F := F)) (adm m hok) (rdats m hok) () defs₀ 𝒱₀ L lv (1 : Fin 5) :=
  rregOf m hok 1 (3 : Fin 4) (Vin1 m) oidx1 (fun _ _ _ => rfl) launch1 (fun _ => rfl)
    (by decide : ∀ w : Fin 4, w ≠ 3 → (cfg1.win w).isOut = false) (fun _ _ => rfl)
    (fun outs c w => (Vin1_arr m outs c w).symm) (fun c => (body_obligation1_fgt (VE m) c).toRForget) rfl (fun _ _ => rfl)
    (fun _ _ => rfl) fun _ => rfl

end Cert.Kernel.Hand

end
-- ==== Proof.KB.Pin2.lean ====
import proofs.«420588_j52003464020428_2_alg».proof.Proof.KB.Threads

noncomputable section

namespace Cert.Kernel.Hand

open Cert.Kernel Cert.Kernel.Gen
open Idealize.ShloMosaic Idealize.ShloMosaic.TcCoe
open Idealize.SL Idealize.SL.BI

variable {F : FTy → Type} [FloatOps F]

/-- Region 2 is entered from `Vin2`; what it leaves in its output array is item `oidx2` of the unknown contents. -/
abbrev Vin2 (m : (ℓ : Loc nD τ sig) → Buf (Elt F) ℓ) (outs : Outs (F := F)) (c : Dev nD) : Valuation τ sig (Elt F) := V5 m outs c
abbrev oidx2 : ℕ := 6

variable (m : (ℓ : Loc nD τ sig) → Buf (Elt F) ℓ) (outs : Outs (F := F))

/-- No item before the region writes one of its windows' arrays. -/
theorem Vin2_arr (c : Dev nD) : ∀ w : Fin 4, Vin2 m outs c (Pipeline.arrRef spec2 w) = VE m c (Pipeline.arrRef spec2 w)
  | 0 | 1 | 2 | 3 => (V5_of m outs c _ (by decide)).trans <| (V4_of m outs c _ (by decide)).trans <| (V3_of m outs c _ (by decide)).trans <| (V2_of m outs c _ (by decide)).trans <| rfl

end Cert.Kernel.Hand

end
-- ==== Proof.KB.Body2.lean ====
import proofs.«420588_j52003464020428_2_alg».proof.Proof.KB.Dat2
import proofs.«420588_j52003464020428_2_alg».proof.Proof.KB.Body0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The four heads run one body. -/
theorem cc2_eq : @cc2__masked_linear_kernel = @cc0__masked_linear_kernel := rfl

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = wblk2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) :
    (dat2 V c).before 2 t d = (cfg2.win 2).fill (grid2.coords t) d (iblk2 V c 2 t) := by
  unfold Dat.before; rw [if_pos (fetch2_2 t)]
  unfold Dat.fetched Dat.blockOf iblk2; rw [A_eq2]; try rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ X, owns (c : Thread nD τ) (st2_3 t) fullShare X))

def bodyPostF2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (∃ d, owns (c : Thread nD τ) (st2_2 t) fullShare
        ((cfg2.win 2).fill (grid2.coords t) d ((cfg2.win 2).cut (grid2.coords t) ((dat2 V c).after 2 t))))
    ∗ (∃ X, owns (c : Thread nD τ) (st2_3 t) fullShare X))

/-- At a grid point the body runs on the three input blocks and hands the weights' block back as found. -/
theorem sound_bodyF2 (c : Dev nD) (t : Fin cfg2.N) :
    bodyPre2 V c t ⊢ wp frame (wpE (defs₀ (F := F)) Variants.none c none) Set.univ (bodyAt2 t) (fun _ => bodyPostF2 V c t) := by
  unfold bodyPre2 bodyPostF2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, cc2_eq]
  iintro ⟨HΦ, Ho, ⟨%d0, H0⟩, ⟨%d1, H1⟩, ⟨%d2, H2⟩, ⟨%X3, H3⟩⟩
  iapply (sound_kernel0 c Set.univ _ _ _ _ _ _ _ _ _ (iblk2 V c 0 t) (iblk2 V c 1 t)
    ((cfg2.win 2).fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg2.win 2).cut (grid2.coords t) (wblk2 V c t) = iblk2 V c 2 t from (cfg2.win 2).cut_fill _ _ _]
    iexact H2
  · iexists _; iexact H3

theorem body_obligation2_fgt (c : Dev nD) :
    BodyObligationLoose (dat2 (F := F) V c) (defs₀ (F := F)) Variants.none () Set.univ (fun w => decide (w = 3)) := fun t => by
  rw [bigSep_W2, bigSep_W2]
  exact sound_bodyF2 V c t

end Cert.Kernel.Hand

end
-- ==== Proof.KB.RReg2.lean ====
import proofs.«420588_j52003464020428_2_alg».proof.Proof.KB.RRegOf
import proofs.«420588_j52003464020428_2_alg».proof.Proof.KB.Pin2
import proofs.«420588_j52003464020428_2_alg».proof.Proof.KB.Body2

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hok : ok4 (F := F) (tbl m))

/-- Region 2: three input windows, and the output window whose contents are item `oidx2` of the unknown ones. -/
def rreg2 : Pipeline.RDat.RegionSeg (pcfgs (F := F)) (adm m hok) (rdats m hok) () defs₀ 𝒱₀ L lv (2 : Fin 5) :=
  rregOf m hok 2 (3 : Fin 4) (Vin2 m) oidx2 (fun _ _ _ => rfl) launch2 (fun _ => rfl)
    (by decide : ∀ w : Fin 4, w ≠ 3 → (cfg2.win w).isOut = false) (fun _ _ => rfl)
    (fun outs c w => (Vin2_arr m outs c w).symm) (fun c => (body_obligation2_fgt (VE m) c).toRForget) rfl (fun _ _ => rfl)
    (fun _ _ => rfl) fun _ => rfl

end Cert.Kernel.Hand

end
-- ==== Proof.KB.Pin3.lean ====
import proofs.«420588_j52003464020428_2_alg».proof.Proof.KB.Threads

noncomputable section

namespace Cert.Kernel.Hand

open Cert.Kernel Cert.Kernel.Gen
open Idealize.ShloMosaic Idealize.ShloMosaic.TcCoe
open Idealize.SL Idealize.SL.BI

variable {F : FTy → Type} [FloatOps F]

/-- Region 3 is entered from `Vin3`; what it leaves in its output array is item `oidx3` of the unknown contents. -/
abbrev Vin3 (m : (ℓ : Loc nD τ sig) → Buf (Elt F) ℓ) (outs : Outs (F := F)) (c : Dev nD) : Valuation τ sig (Elt F) := V7 m outs c
abbrev oidx3 : ℕ := 8

variable (m : (ℓ : Loc nD τ sig) → Buf (Elt F) ℓ) (outs : Outs (F := F))

/-- No item before the region writes one of its windows' arrays. -/
theorem Vin3_arr (c : Dev nD) : ∀ w : Fin 4, Vin3 m outs c (Pipeline.arrRef spec3 w) = VE m c (Pipeline.arrRef spec3 w)
  | 0 | 1 | 2 | 3 => (V7_of m outs c _ (by decide)).trans <| (V6_of m outs c _ (by decide)).trans <| (V5_of m outs c _ (by decide)).trans <| (V4_of m outs c _ (by decide)).trans <| (V3_of m outs c _ (by decide)).trans <| (V2_of m outs c _ (by decide)).trans <| rfl

end Cert.Kernel.Hand

end
-- ==== Proof.KB.Body3.lean ====
import proofs.«420588_j52003464020428_2_alg».proof.Proof.KB.Dat3
import proofs.«420588_j52003464020428_2_alg».proof.Proof.KB.Body0
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The four heads run one body. -/
theorem cc3_eq : @cc3__masked_linear_kernel = @cc0__masked_linear_kernel := rfl

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = wblk3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) :
    (dat3 V c).before 2 t d = (cfg3.win 2).fill (grid3.coords t) d (iblk3 V c 2 t) := by
  unfold Dat.before; rw [if_pos (fetch3_2 t)]
  unfold Dat.fetched Dat.blockOf iblk3; rw [A_eq3]; try rfl

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ X, owns (c : Thread nD τ) (st3_3 t) fullShare X))

def bodyPostF3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (∃ d, owns (c : Thread nD τ) (st3_2 t) fullShare
        ((cfg3.win 2).fill (grid3.coords t) d ((cfg3.win 2).cut (grid3.coords t) ((dat3 V c).after 2 t))))
    ∗ (∃ X, owns (c : Thread nD τ) (st3_3 t) fullShare X))

/-- At a grid point the body runs on the three input blocks and hands the weights' block back as found. -/
theorem sound_bodyF3 (c : Dev nD) (t : Fin cfg3.N) :
    bodyPre3 V c t ⊢ wp frame (wpE (defs₀ (F := F)) Variants.none c none) Set.univ (bodyAt3 t) (fun _ => bodyPostF3 V c t) := by
  unfold bodyPre3 bodyPostF3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, cc3_eq]
  iintro ⟨HΦ, Ho, ⟨%d0, H0⟩, ⟨%d1, H1⟩, ⟨%d2, H2⟩, ⟨%X3, H3⟩⟩
  iapply (sound_kernel0 c Set.univ _ _ _ _ _ _ _ _ _ (iblk3 V c 0 t) (iblk3 V c 1 t)
    ((cfg3.win 2).fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg3.win 2).cut (grid3.coords t) (wblk3 V c t) = iblk3 V c 2 t from (cfg3.win 2).cut_fill _ _ _]
    iexact H2
  · iexists _; iexact H3

theorem body_obligation3_fgt (c : Dev nD) :
    BodyObligationLoose (dat3 (F := F) V c) (defs₀ (F := F)) Variants.none () Set.univ (fun w => decide (w = 3)) := fun t => by
  rw [bigSep_W3, bigSep_W3]
  exact sound_bodyF3 V c t

end Cert.Kernel.Hand

end
-- ==== Proof.KB.RReg3.lean ====
import proofs.«420588_j52003464020428_2_alg».proof.Proof.KB.RRegOf
import proofs.«420588_j52003464020428_2_alg».proof.Proof.KB.Pin3
import proofs.«420588_j52003464020428_2_alg».proof.Proof.KB.Body3

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ) (hok : ok4 (F := F) (tbl m))

/-- Region 3: three input windows, and the output window whose contents are item `oidx3` of the unknown ones. -/
def rreg3 : Pipeline.RDat.RegionSeg (pcfgs (F := F)) (adm m hok) (rdats m hok) () defs₀ 𝒱₀ L lv (3 : Fin 5) :=
  rregOf m hok 3 (3 : Fin 4) (Vin3 m) oidx3 (fun _ _ _ => rfl) launch3 (fun _ => rfl)
    (by decide : ∀ w : Fin 4, w ≠ 3 → (cfg3.win w).isOut = false) (fun _ _ => rfl)
    (fun outs c w => (Vin3_arr m outs c w).symm) (fun c => (body_obligation3_fgt (VE m) c).toRForget) rfl (fun _ _ => rfl)
    (fun _ _ => rfl) fun _ => rfl

end Cert.Kernel.Hand

end
-- ==== Proof.KB.Pin4.lean ====
import proofs.«420588_j52003464020428_2_alg».proof.Proof.KB.Threads

noncomputable section

namespace Cert.Kernel.Hand

open Cert.Kernel Cert.Kernel.Gen
open Idealize.ShloMosaic Idealize.ShloMosaic.TcCoe

variable {F : FTy → Type} [FloatOps F]

/-- Region 4 is entered from `Vin4`; it leaves it updated at its output array, which reads item `oidx4` of the unknown contents. -/
abbrev Vin4 (m : (ℓ : Loc nD τ sig) → Buf (Elt F) ℓ) (outs : Outs (F := F)) (c : Dev nD) : Valuation τ sig (Elt F) := V9 m outs c
abbrev oidx4 : ℕ := 10

variable (m : (ℓ : Loc nD τ sig) → Buf (Elt F) ℓ) (outs : Outs (F := F))

/-- No item before the region writes one of its windows' arrays. -/
theorem Vin4_arr (c : Dev nD) : ∀ w : Fin 3, Vin4 m outs c (Pipeline.arrRef spec4 w) = VE m c (Pipeline.arrRef spec4 w)
  | 0 | 1 | 2 => (V9_of m outs c _ (by decide)).trans <| (V8_of m outs c _ (by decide)).trans <| (V7_of m outs c _ (by decide)).trans <| (V6_of m outs c _ (by decide)).trans <| (V5_of m outs c _ (by decide)).trans <| (V4_of m outs c _ (by decide)).trans <| (V3_of m outs c _ (by decide)).trans <| (V2_of m outs c _ (by decide)).trans <| rfl

end Cert.Kernel.Hand

end
-- ==== Proof.KB.Reg4Table.lean ====
import proofs.«420588_j52003464020428_2_alg».proof.Proof.KB.Adm
import proofs.«420588_j52003464020428_2_alg».proof.Proof.KB.Pin4
import Idealize.ShloMosaic.Lib.Pipeline.Launch

/-!
  The last kernel region's prefetched table among the unscoped buffers. The table's buffer is written by no item
  of the program, so when the region is entered it holds the launch contents, which are the contents the pipeline is
  pinned at. The unscoped buffers that are none of the region's arrays are therefore the table, held whole at those
  contents, beside the buffers that are neither an array nor the table.
-/

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (hok : ok4 (F := F) (tbl m)) (outs : Outs (F := F))

/-- The table's buffer holds at the region's entry what it held after the first host stretch: none of the four
    earlier regions and none of their reshapes writes it. -/
theorem Vin4_main_arg1 (c : Dev nD) : Vin4 m outs c main_arg1 = V1 m c main_arg1 :=
  (V9_of m outs c main_arg1 (by decide)).trans <| (V8_of m outs c main_arg1 (by decide)).trans <|
    (V7_of m outs c main_arg1 (by decide)).trans <| (V6_of m outs c main_arg1 (by decide)).trans <|
    (V5_of m outs c main_arg1 (by decide)).trans <| (V4_of m outs c main_arg1 (by decide)).trans <|
    (V3_of m outs c main_arg1 (by decide)).trans (V2_of m outs c main_arg1 (by decide))

/-- The table holds at the region's entry the contents the pipeline is pinned at. -/
theorem Vin4_pre (c : Dev nD) : (fun k => Vin4 m outs c (pre4.ref k)) = (adm m hok 4).1 :=
  funext fun k => by
    obtain rfl : k = 0 := Subsingleton.elim _ _
    exact (Vin4_main_arg1 m outs c).trans (V1_pre m c 0)

/-- At the region's entry, the unscoped buffers that are none of its arrays are the table, whole at the pinned
    contents, and the buffers that are neither an array nor the table. -/
theorem unscopedRest_tbl4 (c : Dev nD) :
    (Pipeline.unscopedRest (Ix := Unit) (Name := ℕ) (U := UR sig nD τ) (Lvl := ℕ) spec4 c (fun b => Vin4 m outs c b) : sProp 𝕄)
      = iprop(Pipeline.prefHeld pre4 c (fun _ => fullShare) (adm m hok 4).1
          ∗ Pipeline.unscopedRestP pre4 spec4 c (fun b => Vin4 m outs c b)) := by
  rw [Pipeline.unscopedRest_split (Ix := Unit) (Name := ℕ) (U := UR sig nD τ) (Lvl := ℕ) preFacts4 c (fun b => Vin4 m outs c b),
    Vin4_pre m hok outs c]

end Cert.Kernel.Hand

end
-- ==== Proof.KB.Body4.lean ====
import proofs.«420588_j52003464020428_2_alg».proof.Proof.KB.Dat4
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

abbrev r4_in0 : Rect S1x128x512 := Rect.unit (s := S1x128x512) ![0, 0, 0] S1x128x512.size inb_S1x128x512_S1x128x512_0_0_0
abbrev r4_in1 : Rect S1x2500x512 := Rect.unit (s := S1x2500x512) ![0, 0, 0] S1x2500x512.size inb_S1x2500x512_S1x2500x512_0_0_0

theorem cover4_2 (p0 : Vec F S1x128x2500 .f32) (y : S1x128x2500.Idx) :
    ∃ pc ∈ ([⟨r4_0, p0⟩] : List (View.Piece (Elt F) S1x128x2500 .f32)), y ∈ pc.1.set :=
  View.cover_of_tiled [⟨r4_0, p0⟩] S1x128x2500.size (by rfl) y

theorem out4_2_ld (x0 : Vec F S1x128x512 .f32) (x1 : Vec F S1x2500x512 .f32) :
    View.canon [(⟨r4_0, k4_pay1 (View.ld x0 r4_in0) (View.ld x1 r4_in1)⟩ : View.Piece (Elt F) S1x128x2500 .f32)] = out4_2 x0 x1 := by
  unfold out4_2
  rw [View.ld_unit_zero (by funext i; fin_cases i <;> rfl), View.ld_unit_zero (by funext i; fin_cases i <;> rfl)]

set_option maxHeartbeats 1000000 in
/-- The body reads both inputs whole and stores the output whole; the table is passed and never read. -/
theorem sound_kernel4 (c : Dev nD) (E : Set ℕ) (i : grid4.Coords)
    (arg1 : Memref sig .tc .smem S8 .i32) (harg1 : arg1.IsWhole)
    (arg2 : Memref sig .tc .vmem S1x128x512 .f32) (harg2 : arg2.IsWhole)
    (arg3 : Memref sig .tc .vmem S1x2500x512 .f32) (harg3 : arg3.IsWhole)
    (arg4 : Memref sig .tc .vmem S1x128x2500 .f32) (harg4 : arg4.IsWhole)
    (x0 : Vec F S1x128x512 .f32) (x1 : Vec F S1x2500x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E
          (cc4__lang_linear_kernel i arg1 harg1 arg2 harg2 arg3 harg3 arg4 harg4) K := by
  simp only [cc4__lang_linear_kernel_eq_skeleton]; unfold cc4__lang_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover4_2 _)).trans (out4_2_ld _ _)

theorem A_eq4 (c : Dev nD) (w : Fin (cfg4 a).W) : (dat4 a V c).A w = V c (Pipeline.arrRef spec4 w) := by
  dsimp only [dat4]

theorem after4_0 (c : Dev nD) (t : Fin (cfg4 a).N) : (dat4 a V c).after (0 : Fin 3) t = iblk4 a V c (0 : Fin 3) t := by
  dsimp only [dat4]; try rfl
theorem after4_1 (c : Dev nD) (t : Fin (cfg4 a).N) : (dat4 a V c).after (1 : Fin 3) t = iblk4 a V c (1 : Fin 3) t := by
  dsimp only [dat4]; try rfl

theorem Φ_eq4 (c : Dev nD) (t : Fin ((cfg4 a).N + 1)) : (dat4 a V c).Φ t = Φ4 a c := by dsimp only [dat4]

theorem before4_0 (c : Dev nD) (t : Fin (cfg4 a).N) (d) : (dat4 a V c).before (0 : Fin 3) t d = iblk4 a V c (0 : Fin 3) t :=
  ((dat4 a V c).before_in_eq_fetched (0 : Fin 3) rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin (cfg4 a).N) (d) : (dat4 a V c).before (1 : Fin 3) t d = iblk4 a V c (1 : Fin 3) t :=
  ((dat4 a V c).before_in_eq_fetched (1 : Fin 3) rfl (fun _ => rfl) (fun _ _ _ => rfl)
      (fun t => by rw [after4_1]; unfold Dat.blockOf iblk4; rw [A_eq4]; try rfl) t d).trans
    (by unfold Dat.fetched Dat.blockOf iblk4; rw [A_eq4]; try rfl)

abbrev st4_0 (t : Fin (cfg4 a).N) := ((cfg4 a).win (0 : Fin 3)).stage ((cfg4 a).slots t (0 : Fin 3))
abbrev st4_1 (t : Fin (cfg4 a).N) := ((cfg4 a).win (1 : Fin 3)).stage ((cfg4 a).slots t (1 : Fin 3))
abbrev st4_2 (t : Fin (cfg4 a).N) := ((cfg4 a).win (2 : Fin 3)).stage ((cfg4 a).slots t (2 : Fin 3))

abbrev bodyAt4 (t : Fin (cfg4 a).N) : Prog (TpuEff nD τ sig (Elt F) Λ₀ .tc) PUnit :=
  cc4__lang_linear_kernel (grid4.coords t) (Memref.whole main_arg1) (Memref.isWhole_whole _)
    (spec4_0.stage ((cfg4 a).slots t (0 : Fin 3))) (hstage4_0 (((cfg4 a).slots t (0 : Fin 3)).cast nbuf4_0))
    (spec4_1.stage ((cfg4 a).slots t (1 : Fin 3))) (hstage4_1 (((cfg4 a).slots t (1 : Fin 3)).cast nbuf4_1))
    (spec4_2.stage ((cfg4 a).slots t (2 : Fin 3))) (hstage4_2 (((cfg4 a).slots t (2 : Fin 3)).cast nbuf4_2))

def bodyPre4f (c : Dev nD) (t : Fin (cfg4 a).N) : sProp 𝕄 :=
  iprop((dat4 a V c).Φ t.castSucc ∗ (dat4 a V c).owesAt () t.castSucc
    ∗ (∃ d, owns (c : Thread nD τ) (st4_0 a t) fullShare ((dat4 a V c).before (0 : Fin 3) t d))
    ∗ (∃ d, owns (c : Thread nD τ) (st4_1 a t) fullShare ((dat4 a V c).before (1 : Fin 3) t d))
    ∗ (∃ X, owns (c : Thread nD τ) (st4_2 a t) fullShare X))

def bodyPost4f (c : Dev nD) (t : Fin (cfg4 a).N) : sProp 𝕄 :=
  iprop((dat4 a V c).Φ t.succ ∗ (dat4 a V c).owesAt () t.succ
    ∗ owns (c : Thread nD τ) (st4_0 a t) fullShare ((dat4 a V c).after (0 : Fin 3) t)
    ∗ owns (c : Thread nD τ) (st4_1 a t) fullShare ((dat4 a V c).after (1 : Fin 3) t)
    ∗ (∃ X, owns (c : Thread nD τ) (st4_2 a t) fullShare X))

theorem sound_body4f (c : Dev nD) (t : Fin (cfg4 a).N) :
    bodyPre4f a V c t ⊢ wp frame (wpE (defs₀ (F := F)) Variants.none c none) Set.univ (bodyAt4 a t) (fun _ => bodyPost4f a V c t) := by
  unfold bodyPre4f bodyPost4f bodyAt4
  simp only [before4_0, before4_1]
  rewrite [show (dat4 a V c).Φ t.succ = (dat4 a V c).Φ t.castSucc from rfl,
    show (dat4 a V c).owesAt () t.succ = (dat4 a V c).owesAt () t.castSucc from rfl,
    after4_0, after4_1]
  iintro ⟨HΦ, Ho, ⟨%d0, H0⟩, ⟨%d1, H1⟩, ⟨%d2, H2⟩⟩
  iapply (sound_kernel4 c Set.univ _ _ _ _ _ _ _ _ _ (iblk4 a V c (0 : Fin 3) t) (iblk4 a V c (1 : Fin 3) t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexists _; iexact H2

theorem body_obligation4_fgt (c : Dev nD) :
    BodyObligation (dat4 (F := F) a V c) (defs₀ (F := F)) Variants.none () Set.univ (fun w => decide (w = 2)) := fun t => by
  rw [bigSep_W4, bigSep_W4]
  exact sound_body4f a V c t

end Cert.Kernel.Hand

end
-- ==== Proof.KB.RReg4.lean ====
import proofs.«420588_j52003464020428_2_alg».proof.Proof.KB.RRegOf
import proofs.«420588_j52003464020428_2_alg».proof.Proof.KB.Pin4
import proofs.«420588_j52003464020428_2_alg».proof.Proof.KB.Reg4Table
import proofs.«420588_j52003464020428_2_alg».proof.Proof.KB.Body4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

variable (m : (ℓ : Loc nD τ sig) → Buf (Elt F) ℓ) (hok : ok4 (F := F) (tbl m))

/-- Region 4: as the four before it, carrying the table of language ids through unread. -/
def rreg4 : Pipeline.RDat.RegionSeg (pcfgs (F := F)) (adm m hok) (rdats m hok) () defs₀ 𝒱₀ L lv (4 : Fin 5) where
  win := (launch4 (F := F)).win.to₀
  block_pos := (launch4 (F := F)).block_pos
  stage_whole := (launch4 (F := F)).stage_whole
  K := PEmpty
  osem k := k.elim
  ho := Pipeline.OwnSemFacts.none _
  hbody c := (body_obligation4_fgt (adm m hok (4 : Fin 5)) (VE m) c).toRForget
  hwaits := Pipeline.RDat.hwaits_of_owed_zero _ _ _ _ L lv (4 : Fin 5) fun _ _ => rfl
  pre c := T9 m c
  post c := T10 m c
  X c := iprop(∃ r, prngReg c r)
  Y c := iprop((∃ r, prngReg c r) ∗ Pipeline.prefHeld (Ix := Unit) (Name := ℕ) (U := UR sig nD τ) (Lvl := ℕ) pre4 c (fun _ => fullShare) (adm m hok (4 : Fin 5)).1)
  Z c := iprop(∃ outs : Outs (F := F), Pipeline.unscopedRestP (Ix := Unit) (Name := ℕ) (U := UR sig nD τ) (Lvl := ℕ) pre4 spec4 c (fun b => Vin4 m outs c b))
  hentry c := by
    rw [Pipeline.ownSems0_none]
    iintro ⟨⟨%outs, Hub, Hp, HO⟩, -, -⟩
    have hsplit := (Pipeline.RDat.arrays_of_unscopedBufs (p := (4 : Fin 5)) (pcfgs (F := F)) (adm m hok) (rdats m hok) (launch4 (F := F)).win (launch4 (F := F)).arr_whole c
      ((rdats m hok (4 : Fin 5) c).share_full fun _ => rfl) (fun b => Vin4 m outs c b) fun w => (Vin4_arr m outs c w).symm).trans
        (sep_mono .rfl (Entails.of_eq (unscopedRest_tbl4 m hok outs c)))
    rw [Pipeline.unscopedBufs_held c (Vin4 m outs c)] at hsplit
    ihave H := hsplit $$ Hub
    icases H with ⟨Ha, Ht, Hrest⟩
    imodintro
    isplitl [Ha]; · iexact Ha
    isplitl [Ht]; · iexact Ht
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexists outs; iexact Hrest
  hin c := by
    rw [show (rdats m hok (4 : Fin 5) c).Φ 0 = Φ4 (adm m hok (4 : Fin 5)) c from rfl]
    unfold Φ4 Pipeline.ΦA
    iintro ⟨Hp, Ht, Hr⟩
    isplitr [Ht]
    · isplitl [Hr]; · iexact Hr
      iexact Hp
    iexact Ht
  hout c := by
    rw [Pipeline.ownSems0_none, show (rdats m hok (4 : Fin 5) c).Φ (Fin.last _) = Φ4 (adm m hok (4 : Fin 5)) c from rfl]
    unfold Φ4 Pipeline.ΦA
    iintro ⟨⟨Hr, Hp⟩, Ht⟩
    isplitl [Hp Ht]
    · isplitl [Hp]; · iexact Hp
      iexact Ht
    isplitr; · iempintro
    iexact Hr
  hexit c := by
    iintro ⟨Ha, HO, ⟨Hp, Ht⟩, ⟨%outs, Hrest⟩⟩
    have hopen : ((rdats m hok (4 : Fin 5) c).arraysAt (Pipeline.pin (pcfgs (F := F)) (adm m hok) (4 : Fin 5)).N : sProp (MM F)) ⊢ _ :=
      arraysAt_toRForget (pdats m hok (4 : Fin 5) c) fgt4 _
    ihave Ha' := hopen $$ Ha
    icases Ha' with ⟨%Fs, %hFs, Ha⟩
    have hjoin := (sep_mono .rfl (Entails.of_eq (unscopedRest_tbl4 m hok outs c).symm)).trans
      (Pipeline.unscopedBufs_of_arrays (p := (4 : Fin 5)) (pcfgs (F := F)) (adm m hok) (Ix := Unit) (Name := ℕ) (U := UR sig nD τ) (Lvl := ℕ)
      (launch4 (F := F)).win (launch4 (F := F)).arr_whole c (pdats m hok) ((pdats m hok (4 : Fin 5) c).share_full fun _ => rfl)
      (fun b => Vin4 m outs c b) (fun b => V10 m (routs m hok 4 (2 : Fin 3) (Vin4 m) oidx4 outs c (Fs 2)) c b) Fs
      (exit_arrays m hok 4 (2 : Fin 3) (Vin4 m) oidx4 (fun _ _ _ => rfl) launch4
        (fun | 0, _ => rfl | 1, _ => rfl | 2, h => (h rfl).elim)
        (fun outs c w => (Vin4_arr m outs c w).symm) outs c Fs hFs)
      fun b hb => Vout_routs_ne m hok 4 (2 : Fin 3) (Vin4 m) oidx4 (fun _ _ _ => rfl) outs c (Fs 2) b
        fun e => hb (Finset.mem_image.mpr ⟨2, Finset.mem_univ _, e.symm⟩))
    rw [Pipeline.unscopedBufs_held] at hjoin
    imodintro
    iexists routs m hok 4 (2 : Fin 3) (Vin4 m) oidx4 outs c (Fs 2)
    isplitl [Ha Ht Hrest]
    · iapply hjoin
      isplitl [Ha]; · iexact Ha
      isplitl [Ht]; · iexact Ht
      iexact Hrest
    isplitl [Hp]; · iexact Hp
    unfold Pipeline.RDat.owesAt Pipeline.owesWithin
    icases HO with ⟨%W, -, HO⟩; iexists W; iexact HO

end Cert.Kernel.Hand

end
-- ==== Proof.KB.FrameAll.lean ====
/-
  The frame of the whole program under the precondition: the table of language ids it admits keeps every block of
  region 4's weight window inside its array, so the five regions' records exist, and the launch over them ends with
  every argument array as launched.
-/
import proofs.«420588_j52003464020428_2_alg».proof.Proof.KB.FrameR
import proofs.«420588_j52003464020428_2_alg».proof.Proof.KB.Ids
import proofs.«420588_j52003464020428_2_alg».proof.Proof.KB.RRegData
import proofs.«420588_j52003464020428_2_alg».proof.Proof.KB.RReg0
import proofs.«420588_j52003464020428_2_alg».proof.Proof.KB.RReg1
import proofs.«420588_j52003464020428_2_alg».proof.Proof.KB.RReg2
import proofs.«420588_j52003464020428_2_alg».proof.Proof.KB.RReg3
import proofs.«420588_j52003464020428_2_alg».proof.Proof.KB.RReg4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.Pre_finite_inputs.Facts]

theorem frame_all (m : (ℓ : Loc nD τ sig) → Buf (Elt F) ℓ) (ρ : Dev nD → PrngReg) (hP : PreM (F := F) m) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_r m ρ (adm m (ok4_of_pre m hP)) (rdats m (ok4_of_pre m hP))
    (rreg0 m (ok4_of_pre m hP)) (fun _ => .rfl) (fun _ => .rfl)
    (rreg1 m (ok4_of_pre m hP)) (fun _ => .rfl) (fun _ => .rfl)
    (rreg2 m (ok4_of_pre m hP)) (fun _ => .rfl) (fun _ => .rfl)
    (rreg3 m (ok4_of_pre m hP)) (fun _ => .rfl) (fun _ => .rfl)
    (rreg4 m (ok4_of_pre m hP)) (fun _ => .rfl) (fun _ => .rfl)

end Cert.Kernel.Hand

end
-- ==== Proof.KI.LaunchIdeal.lean ====
import proofs.«420588_j52003464020428_2_alg».proof.Proof.KI.Threads
import proofs.«420588_j52003464020428_2_alg».proof.Proof.KI.RunCond

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

theorem rest_of_launch (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ R (F := F) c := by
  iintro ⟨-, HO, -, Hp, -⟩
  isplitl [Hp]; · iexists _; iexact Hp
  iexists ∅; iexact HO

/-- The run's end: every result at the last valuation, every argument as launched. -/
def Ends (mem : (ℓ : Loc nD τ sig) → Buf (Elt F) ℓ) : Prop := ∀ c : Dev nD,
      mem ((c.tc : Thread nD τ).loc main_v18) = V11 m outs c main_v18
      ∧ mem ((c.tc : Thread nD τ).loc main_v25) = V11 m outs c main_v25
      ∧ mem ((c.tc : Thread nD τ).loc main_v26) = V11 m outs c main_v26
      ∧ mem ((c.tc : Thread nD τ).loc main_v20) = V11 m outs c main_v20
      ∧ mem ((c.tc : Thread nD τ).loc main_v22) = V11 m outs c main_v22
      ∧ mem ((c.tc : Thread nD τ).loc main_v24) = V11 m outs c main_v24
      ∧ mem ((c.tc : Thread nD τ).loc main_v34) = V11 m outs c main_v34
      ∧ mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)

set_option backward.isDefEq.respectTransparency.types false in
/-- The program's run from its five regions' records: every result ends at the last valuation, every argument as launched. -/
theorem run_launch (ρ : Dev nD → PrngReg) (a : (p : Fin 5) → (pcfgs (F := F) p).Adm)
    (pdats : (p : Fin 5) → (c : Dev nD) → Dat τ (Elt F) Unit ℕ (UR sig nD τ) ℕ (Pipeline.pin (pcfgs (F := F)) a p) c)
    (R0 : RegionSeg (pcfgs (F := F)) a pdats () defs₀ 𝒱₀ L lv 0)
    (hpre0 : ∀ c : Dev nD, iprop(StableHlo.held (c : Thread nD τ) (Pipeline.ucRefs τ sig) (V1 m c) ∗ R (F := F) c) ⊢ R0.pre c)
    (hpost0 : ∀ c : Dev nD, R0.post c ⊢ iprop(StableHlo.held (c : Thread nD τ) (Pipeline.ucRefs τ sig) (V2 m outs c) ∗ R (F := F) c))
    (R1 : RegionSeg (pcfgs (F := F)) a pdats () defs₀ 𝒱₀ L lv 1)
    (hpre1 : ∀ c : Dev nD, iprop(StableHlo.held (c : Thread nD τ) (Pipeline.ucRefs τ sig) (V3 m outs c) ∗ R (F := F) c) ⊢ R1.pre c)
    (hpost1 : ∀ c : Dev nD, R1.post c ⊢ iprop(StableHlo.held (c : Thread nD τ) (Pipeline.ucRefs τ sig) (V4 m outs c) ∗ R (F := F) c))
    (R2 : RegionSeg (pcfgs (F := F)) a pdats () defs₀ 𝒱₀ L lv 2)
    (hpre2 : ∀ c : Dev nD, iprop(StableHlo.held (c : Thread nD τ) (Pipeline.ucRefs τ sig) (V5 m outs c) ∗ R (F := F) c) ⊢ R2.pre c)
    (hpost2 : ∀ c : Dev nD, R2.post c ⊢ iprop(StableHlo.held (c : Thread nD τ) (Pipeline.ucRefs τ sig) (V6 m outs c) ∗ R (F := F) c))
    (R3 : RegionSeg (pcfgs (F := F)) a pdats () defs₀ 𝒱₀ L lv 3)
    (hpre3 : ∀ c : Dev nD, iprop(StableHlo.held (c : Thread nD τ) (Pipeline.ucRefs τ sig) (V7 m outs c) ∗ R (F := F) c) ⊢ R3.pre c)
    (hpost3 : ∀ c : Dev nD, R3.post c ⊢ iprop(StableHlo.held (c : Thread nD τ) (Pipeline.ucRefs τ sig) (V8 m outs c) ∗ R (F := F) c))
    (R4 : RegionSeg (pcfgs (F := F)) a pdats () defs₀ 𝒱₀ L lv 4)
    (hpre4 : ∀ c : Dev nD, iprop(StableHlo.held (c : Thread nD τ) (Pipeline.ucRefs τ sig) (V9 m outs c) ∗ R (F := F) c) ⊢ R4.pre c)
    (hpost4 : ∀ c : Dev nD, R4.post c ⊢ iprop(StableHlo.held (c : Thread nD τ) (Pipeline.ucRefs τ sig) (V10 m outs c) ∗ R (F := F) c)) :
    θ_run defs (onTc (τ := τ) (main (F := F))) ⟨m, fun _ => 0, ρ⟩ (fun r => Ends m outs r.2.mem) :=
  run_cond m (F := F) emb₁ () 𝒱₀ L lv (fun _ _ => rfl) ρ outs a pdats (O₀ := 0) (G := fun _ => iprop(emp))
    (u₀ := initOf (Pipeline.cells (Pipeline.pin (pcfgs (F := F)) a) (cellOf_inj a)) (Pipeline.launchToks (Pipeline.pin (pcfgs (F := F)) a) (cellOf_inj a)))
    (hu₀ := by
      iintro Hu; imodintro
      isplitl [Hu]
      · iapply (show (ownU (initOf (Pipeline.cells (Pipeline.pin (pcfgs (F := F)) a) (cellOf_inj a)) (Pipeline.launchToks (Pipeline.pin (pcfgs (F := F)) a) (cellOf_inj a))) : sProp 𝕄)
            ⊢ BI.own (emb₁ (initOf (Pipeline.cells (Pipeline.pin (pcfgs (F := F)) a) (cellOf_inj a)) (Pipeline.launchToks (Pipeline.pin (pcfgs (F := F)) a) (cellOf_inj a)))) from .rfl)
        iexact Hu
      iapply (show (BI.emp : sProp 𝕄) ⊢ bigSep Finset.univ (fun _ : Dev nD => (BI.emp : sProp 𝕄)) from by rw [BI.bigSep_emp_const])
      iempintro)
    (E := fun _ c => R (F := F) c)
    (hE0 := by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
          ⊢ (bigSep Finset.univ (fun c : Dev nD => R (F := F) c) : sProp 𝕄) := bigSep_mono fun c _ => rest_of_launch (F := F) ρ c
      iintro ⟨H, -⟩
      imodintro
      iapply hmono
      iexact H)
    (hE5 := fun c => by iintro ⟨-, HO⟩; iexact HO)
    R0 hpre0 hpost0 R1 hpre1 hpost1 R2 hpre2 hpost2 R3 hpre3 hpost3 R4 hpre4 hpost4

end Cert.KernelIdeal.Hand

end
-- ==== Proof.KI.RegOf.lean ====
import proofs.«420588_j52003464020428_2_alg».proof.Proof.KI.Pdats
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

variable (m : (ℓ : Loc nD τ sig) → Buf (Elt F) ℓ) (hok : ok4 (F := F) (tbl m)) {p : Fin 5}
  (hl : Pipeline.PLaunchFacts (nD := nD) (τ := τ) (pcfgs (F := F)) p)
  (Vin : Dev nD → Valuation τ sig (Elt F)) (o : Fin (pcfgs (F := F) p).W)
  (x : (c : Dev nD) → Buf (Elt F) ((c : Thread nD τ).loc (Pipeline.arrRef (pcfgs (F := F) p).spec o)))
  (hA : ∀ c w, Vin c (Pipeline.arrRef (pcfgs (F := F) p).spec w) = (pdats m hok p c).A w)
  (hin : ∀ w, w ≠ o → ((pcfgs (F := F) p).spec w).isOut = false)
  (hx : ∀ c, x c = (pdats m hok p c).arrAt o (Pipeline.pin (pcfgs (F := F)) (adm m hok) p).N)

/-- The valuation a region leaves: the one it is entered from with the output window's array at `x`. -/
abbrev Vupd (c : Dev nD) : Valuation τ sig (Elt F) :=
  Function.update (Vin c) (Pipeline.arrRef (pcfgs (F := F) p).spec o) (x c)

include hl hA hin hx in
/-- An input window's array is never written and is distinct from the output window's; the output window's ends at `x`. -/
theorem arrAt_last (c : Dev nD) (w : Fin (pcfgs (F := F) p).W) :
    (pdats m hok p c).arrAt w (Pipeline.pin (pcfgs (F := F)) (adm m hok) p).N
      = Vupd Vin o x c (Pipeline.arrRef (pcfgs (F := F) p).spec w) := by
  by_cases h : w = o
  · subst h; exact (hx c).symm.trans (Function.update_self (Proc.devRef (τ := τ) .tc (Pipeline.arrRef (pcfgs (F := F) p).spec w)) (x c) (Vin c)).symm
  · exact (((pdats m hok p c).arrAt_in w (hin w h) _).trans (hA c w).symm).trans
      (Function.update_of_ne (StableHlo.devRef_ne_of_ne fun e => h (hl.win.arr_inj e)) (x c) (Vin c)).symm

/-- A buffer that is no window's array is not the output window's. -/
theorem Vupd_rest (c : Dev nD) (b : Ref sig .tc) (hb : b ∉ Finset.univ.image (Pipeline.arrRef (pcfgs (F := F) p).spec)) :
    Vupd Vin o x c b = Vin c b :=
  Function.update_of_ne (StableHlo.devRef_ne_of_ne fun e => hb (Finset.mem_image.mpr ⟨o, Finset.mem_univ _, e.symm⟩)) _ _

set_option backward.isDefEq.respectTransparency.types false in
/-- A region with one output window and no table: entered with every array at `Vin`, left with the output window's array at `x`. -/
def regOf (hq : ∀ c w, (pdats m hok p c).q w = fullShare) (howed : ∀ c t, (pdats m hok p c).owed t = 0)
    (hrec : ∀ c t, (pdats m hok p c).recorded t = Set.univ)
    (hΦ : ∀ c t, (pdats m hok p c).Φ t = Pipeline.ΦA (pcfgs (F := F) p).spec c)
    (hK : IsEmpty (Fin (pcfgs (F := F) p).pre.K))
    (hbody : ∀ c, BodyObligationLoose (pdats m hok p c) (defs₀ (F := F)) 𝒱₀ () Set.univ) :
    Pipeline.RegionSeg (pcfgs (F := F)) (adm m hok) (pdats m hok) () defs₀ 𝒱₀ L lv p where
  win := hl.win.to₀
  block_pos := hl.block_pos
  stage_whole := hl.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Vin c) ∗ R (F := F) c)
  post c := iprop(StableHlo.held (c : Thread nD τ) (Pipeline.ucRefs τ sig) (Vupd Vin o x c) ∗ R (F := F) c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Vin c b)
  hentry c := by
    rw [Pipeline.ownSems0_none]
    have hsplit := Pipeline.arrays_of_unscopedBufs (p := p) (pcfgs (F := F)) (adm m hok) (pdats m hok)
      hl.win hl.arr_whole c ((pdats m hok p c).share_full (hq c)) (fun b => Vin c b) fun w => (hA c w).symm
    rw [Pipeline.unscopedBufs_held c (Vin c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [@Finset.univ_eq_empty _ _ hK, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) (adm m hok) (Ix := Unit) (Name := ℕ) (U := UR sig nD τ) (Lvl := ℕ)
      hl.win hl.arr_whole c (pdats m hok) ((pdats m hok p c).share_full (hq c))
      (fun b => Vin c b) (fun b => Vupd Vin o x c b) ((pdats m hok p c).arrAt · (Pipeline.pin (pcfgs (F := F)) (adm m hok) p).N)
      (arrAt_last m hok hl Vin o x hA hin hx c) (Vupd_rest Vin o x c)
    rw [Pipeline.unscopedBufs_held c (Vupd Vin o x c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Reg0.lean ====
import proofs.«420588_j52003464020428_2_alg».proof.Proof.KI.RegOf
import proofs.«420588_j52003464020428_2_alg».proof.Proof.KI.Pin0

noncomputable section

namespace Cert.KernelIdeal.Hand

open Cert.KernelIdeal Cert.KernelIdeal.Gen
open Idealize.ShloMosaic Idealize.ShloMosaic.TcCoe
open Idealize.ShloMosaic.Pipeline (BodyObligationLoose)

variable {F : FTy → Type} [FloatOps F]
  (m : (ℓ : Loc nD τ sig) → Buf (Elt F) ℓ) (hok : ok4 (F := F) (tbl m)) (outs : Outs (F := F))

set_option backward.isDefEq.respectTransparency.types false in
def reg0 (hbody0 : ∀ c, BodyObligationLoose (pdats m hok (0 : Fin 5) c) (defs₀ (F := F)) 𝒱₀ () Set.univ)
    (hout0 : ∀ c, outs oidx0 oarr0 c = (pdats m hok (0 : Fin 5) c).arrAt 3 cfg0.N) :
    Pipeline.RegionSeg (pcfgs (F := F)) (adm m hok) (pdats m hok) () defs₀ 𝒱₀ L lv (0 : Fin 5) :=
  regOf m hok launch0 (Vin0 m outs) 3 (outs oidx0 oarr0) (Vin0_arr m outs) (by decide : ∀ w : Fin 4, w ≠ 3 → (spec0 w).isOut = false) hout0
    (fun _ _ => rfl) (fun _ _ => rfl) (fun _ _ => rfl) (fun _ _ => rfl) Fin.isEmpty hbody0

end Cert.KernelIdeal.Hand

end
-- ==== Proof.KI.Reg1.lean ====
import proofs.«420588_j52003464020428_2_alg».proof.Proof.KI.RegOf
import proofs.«420588_j52003464020428_2_alg».proof.Proof.KI.Pin1

noncomputable section

namespace Cert.KernelIdeal.Hand

open Cert.KernelIdeal Cert.KernelIdeal.Gen
open Idealize.ShloMosaic Idealize.ShloMosaic.TcCoe
open Idealize.ShloMosaic.Pipeline (BodyObligationLoose)

variable {F : FTy → Type} [FloatOps F]
  (m : (ℓ : Loc nD τ sig) → Buf (Elt F) ℓ) (hok : ok4 (F := F) (tbl m)) (outs : Outs (F := F))

set_option backward.isDefEq.respectTransparency.types false in
def reg1 (hbody0 : ∀ c, BodyObligationLoose (pdats m hok (1 : Fin 5) c) (defs₀ (F := F)) 𝒱₀ () Set.univ)
    (hout0 : ∀ c, outs oidx1 oarr1 c = (pdats m hok (1 : Fin 5) c).arrAt 3 cfg1.N) :
    Pipeline.RegionSeg (pcfgs (F := F)) (adm m hok) (pdats m hok) () defs₀ 𝒱₀ L lv (1 : Fin 5) :=
  regOf m hok launch1 (Vin1 m outs) 3 (outs oidx1 oarr1) (Vin1_arr m outs) (by decide : ∀ w : Fin 4, w ≠ 3 → (spec1 w).isOut = false) hout0
    (fun _ _ => rfl) (fun _ _ => rfl) (fun _ _ => rfl) (fun _ _ => rfl) Fin.isEmpty hbody0

end Cert.KernelIdeal.Hand

end
-- ==== Proof.KI.Reg2.lean ====
import proofs.«420588_j52003464020428_2_alg».proof.Proof.KI.RegOf
import proofs.«420588_j52003464020428_2_alg».proof.Proof.KI.Pin2

noncomputable section

namespace Cert.KernelIdeal.Hand

open Cert.KernelIdeal Cert.KernelIdeal.Gen
open Idealize.ShloMosaic Idealize.ShloMosaic.TcCoe
open Idealize.ShloMosaic.Pipeline (BodyObligationLoose)

variable {F : FTy → Type} [FloatOps F]
  (m : (ℓ : Loc nD τ sig) → Buf (Elt F) ℓ) (hok : ok4 (F := F) (tbl m)) (outs : Outs (F := F))

set_option backward.isDefEq.respectTransparency.types false in
def reg2 (hbody0 : ∀ c, BodyObligationLoose (pdats m hok (2 : Fin 5) c) (defs₀ (F := F)) 𝒱₀ () Set.univ)
    (hout0 : ∀ c, outs oidx2 oarr2 c = (pdats m hok (2 : Fin 5) c).arrAt 3 cfg2.N) :
    Pipeline.RegionSeg (pcfgs (F := F)) (adm m hok) (pdats m hok) () defs₀ 𝒱₀ L lv (2 : Fin 5) :=
  regOf m hok launch2 (Vin2 m outs) 3 (outs oidx2 oarr2) (Vin2_arr m outs) (by decide : ∀ w : Fin 4, w ≠ 3 → (spec2 w).isOut = false) hout0
    (fun _ _ => rfl) (fun _ _ => rfl) (fun _ _ => rfl) (fun _ _ => rfl) Fin.isEmpty hbody0

end Cert.KernelIdeal.Hand

end
-- ==== Proof.KI.Reg3.lean ====
import proofs.«420588_j52003464020428_2_alg».proof.Proof.KI.RegOf
import proofs.«420588_j52003464020428_2_alg».proof.Proof.KI.Pin3

noncomputable section

namespace Cert.KernelIdeal.Hand

open Cert.KernelIdeal Cert.KernelIdeal.Gen
open Idealize.ShloMosaic Idealize.ShloMosaic.TcCoe
open Idealize.ShloMosaic.Pipeline (BodyObligationLoose)

variable {F : FTy → Type} [FloatOps F]
  (m : (ℓ : Loc nD τ sig) → Buf (Elt F) ℓ) (hok : ok4 (F := F) (tbl m)) (outs : Outs (F := F))

set_option backward.isDefEq.respectTransparency.types false in
def reg3 (hbody0 : ∀ c, BodyObligationLoose (pdats m hok (3 : Fin 5) c) (defs₀ (F := F)) 𝒱₀ () Set.univ)
    (hout0 : ∀ c, outs oidx3 oarr3 c = (pdats m hok (3 : Fin 5) c).arrAt 3 cfg3.N) :
    Pipeline.RegionSeg (pcfgs (F := F)) (adm m hok) (pdats m hok) () defs₀ 𝒱₀ L lv (3 : Fin 5) :=
  regOf m hok launch3 (Vin3 m outs) 3 (outs oidx3 oarr3) (Vin3_arr m outs) (by decide : ∀ w : Fin 4, w ≠ 3 → (spec3 w).isOut = false) hout0
    (fun _ _ => rfl) (fun _ _ => rfl) (fun _ _ => rfl) (fun _ _ => rfl) Fin.isEmpty hbody0

end Cert.KernelIdeal.Hand

end
-- ==== Proof.KI.Reg4Table.lean ====
import proofs.«420588_j52003464020428_2_alg».proof.Proof.KI.Adm
import proofs.«420588_j52003464020428_2_alg».proof.Proof.KI.Pin4
import Idealize.ShloMosaic.Lib.Pipeline.Launch

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (hok : ok4 (F := F) (tbl m)) (outs : Outs (F := F))

theorem Vin4_main_arg1 (c : Dev nD) : Vin4 m outs c main_arg1 = V1 m c main_arg1 :=
  (V9_of m outs c main_arg1 (by decide)).trans <| (V8_of m outs c main_arg1 (by decide)).trans <|
    (V7_of m outs c main_arg1 (by decide)).trans <| (V6_of m outs c main_arg1 (by decide)).trans <|
    (V5_of m outs c main_arg1 (by decide)).trans <| (V4_of m outs c main_arg1 (by decide)).trans <|
    (V3_of m outs c main_arg1 (by decide)).trans (V2_of m outs c main_arg1 (by decide))

theorem Vin4_pre (c : Dev nD) : (fun k => Vin4 m outs c (pre4.ref k)) = (adm m hok 4).1 :=
  funext fun k => by
    obtain rfl : k = 0 := Subsingleton.elim _ _
    exact (Vin4_main_arg1 m outs c).trans (V1_pre m c 0)

theorem unscopedRest_tbl4 (c : Dev nD) :
    (Pipeline.unscopedRest (Ix := Unit) (Name := ℕ) (U := UR sig nD τ) (Lvl := ℕ) spec4 c (fun b => Vin4 m outs c b) : sProp 𝕄)
      = iprop(Pipeline.prefHeld pre4 c (fun _ => fullShare) (adm m hok 4).1
          ∗ Pipeline.unscopedRestP pre4 spec4 c (fun b => Vin4 m outs c b)) := by
  rw [Pipeline.unscopedRest_split (Ix := Unit) (Name := ℕ) (U := UR sig nD τ) (Lvl := ℕ) preFacts4 c (fun b => Vin4 m outs c b),
    Vin4_pre m hok outs c]

end Cert.KernelIdeal.Hand

end
-- ==== Proof.KI.Reg4.lean ====
import proofs.«420588_j52003464020428_2_alg».proof.Proof.KI.RegOf
import proofs.«420588_j52003464020428_2_alg».proof.Proof.KI.Pin4
import proofs.«420588_j52003464020428_2_alg».proof.Proof.KI.Reg4Table
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (hok : ok4 (F := F) (tbl m)) (outs : Outs (F := F))

theorem hrest4 (c : Dev nD) (b : Ref sig .tc) (hb : b ∉ Finset.univ.image (Pipeline.arrRef spec4)) :
    Vout4 m outs c b = Vin4 m outs c b :=
  Function.update_of_ne (StableHlo.devRef_ne_of_ne fun e : b = oarr4 =>
    hb (Finset.mem_image.mpr ⟨2, Finset.mem_univ _, e.symm⟩)) (outs oidx4 oarr4 c) (Vin4 m outs c)

set_option backward.isDefEq.respectTransparency.types false in
def reg4 (hbody4 : ∀ c, BodyObligationLoose (pdats m hok (4 : Fin 5) c) (defs₀ (F := F)) 𝒱₀ () Set.univ)
    (hout4 : ∀ c, outs oidx4 oarr4 c = (pdats m hok (4 : Fin 5) c).arrAt 2 (cfg4 (adm m hok 4)).N) :
    Pipeline.RegionSeg (pcfgs (F := F)) (adm m hok) (pdats m hok) () defs₀ 𝒱₀ L lv (4 : Fin 5) where
  win := (launch4 (F := F)).win.to₀
  block_pos := (launch4 (F := F)).block_pos
  stage_whole := (launch4 (F := F)).stage_whole
  K := PEmpty
  osem k := k.elim
  ho := Pipeline.OwnSemFacts.none _
  hbody := hbody4
  hwaits := Pipeline.hwaits_of_owed_zero _ _ _ _ L lv (4 : Fin 5) fun _ _ => rfl
  pre c := iprop(StableHlo.held (c : Thread nD τ) (Pipeline.ucRefs τ sig) (Vin4 m outs c) ∗ R (F := F) c)
  post c := iprop(StableHlo.held (c : Thread nD τ) (Pipeline.ucRefs τ sig) (Vout4 m outs c) ∗ R (F := F) c)
  X c := iprop(∃ r, prngReg c r)
  Y c := iprop((∃ r, prngReg c r)
    ∗ Pipeline.prefHeld (Ix := Unit) (Name := ℕ) (U := UR sig nD τ) (Lvl := ℕ) pre4 c (fun _ => fullShare) (adm m hok 4).1)
  Z c := Pipeline.unscopedRestP (Ix := Unit) (Name := ℕ) (U := UR sig nD τ) (Lvl := ℕ) pre4 spec4 c (fun b => Vin4 m outs c b)
  hentry c := by
    rw [Pipeline.ownSems0_none]
    have hsplit := (Pipeline.arrays_of_unscopedBufs (p := (4 : Fin 5)) (pcfgs (F := F)) (adm m hok) (pdats m hok)
      (launch4 (F := F)).win (launch4 (F := F)).arr_whole c
      ((pdats m hok (4 : Fin 5) c).share_full fun _ => rfl) (fun b => Vin4 m outs c b) fun w => (Vin4_arr m outs c w).symm).trans
      (sep_mono .rfl (Entails.of_eq (unscopedRest_tbl4 m hok outs c)))
    rw [Pipeline.unscopedBufs_held c (Vin4 m outs c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hok (4 : Fin 5) c).Φ 0 = Φ4 (adm m hok 4) c from rfl]; unfold Φ4 Pipeline.ΦA
    iintro ⟨Hp, Ht, Hr⟩
    isplitr [Ht]
    · isplitl [Hr]; · iexact Hr
      iexact Hp
    iexact Ht
  hout c := by
    rw [Pipeline.ownSems0_none, show (pdats m hok (4 : Fin 5) c).Φ (Fin.last _) = Φ4 (adm m hok 4) c from rfl]; unfold Φ4 Pipeline.ΦA
    iintro ⟨⟨Hr, Hp⟩, Ht⟩
    isplitl [Hp Ht]
    · isplitl [Hp]; · iexact Hp
      iexact Ht
    isplitr; · iempintro
    iexact Hr
  hexit c := by
    have hjoin := (sep_mono .rfl (Entails.of_eq (unscopedRest_tbl4 m hok outs c).symm)).trans
      (Pipeline.unscopedBufs_of_arrays (p := (4 : Fin 5)) (pcfgs (F := F)) (adm m hok) (Ix := Unit) (Name := ℕ) (U := UR sig nD τ) (Lvl := ℕ)
        (launch4 (F := F)).win (launch4 (F := F)).arr_whole c (pdats m hok) ((pdats m hok (4 : Fin 5) c).share_full fun _ => rfl)
        (fun b => Vin4 m outs c b) (fun b => Vout4 m outs c b) ((pdats m hok (4 : Fin 5) c).arrAt · (cfg4 (adm m hok 4)).N)
        (arrAt_last (p := (4 : Fin 5)) m hok launch4 (Vin4 m outs) (2 : Fin 3) (outs oidx4 oarr4) (Vin4_arr m outs)
          (by decide : ∀ w : Fin 3, w ≠ 2 → (spec4 w).isOut = false) hout4 c) (hrest4 m outs c))
    rw [Pipeline.unscopedBufs_held c (Vout4 m outs c)] at hjoin
    iintro ⟨Ha, HO, ⟨Hp, Ht⟩, Hrest⟩
    imodintro
    isplitl [Ha Ht Hrest]
    · iapply hjoin
      isplitl [Ha]; · iexact Ha
      isplitl [Ht]; · iexact Ht
      iexact Hrest
    isplitl [Hp]; · iexact Hp
    unfold Pipeline.Dat.owesAt Pipeline.owesWithin
    icases HO with ⟨%W, -, HO⟩; iexists W; iexact HO

end Cert.KernelIdeal.Hand

end
-- ==== Proof.KI.Body0.lean ====
import proofs.«420588_j52003464020428_2_alg».proof.Proof.KI.Dat0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

theorem cover0_3 (p0 : Vec F S1024x1280 .f32) (y : S1024x1280.Idx) :
    ∃ pc ∈ ([⟨r0_3, p0⟩] : List (View.Piece (Elt F) S1024x1280 .f32)), y ∈ pc.1.set :=
  View.cover_of_tiled [⟨r0_3, p0⟩] S1024x1280.size (by rfl) y

set_option maxHeartbeats 1000000 in
/-- The body reads its three inputs whole and stores the output whole: it ends with the inputs as found and the output at `out0_3` of them. -/
theorem sound_kernel0 (c : Dev nD) (E : Set ℕ) (i : grid0.Coords)
    (arg1 : Memref sig .tc .vmem S1024x512 .f32) (harg1 : arg1.IsWhole)
    (arg2 : Memref sig .tc .vmem S1024x1 .f32) (harg2 : arg2.IsWhole)
    (arg3 : Memref sig .tc .vmem S1280x512 .f32) (harg3 : arg3.IsWhole)
    (arg4 : Memref sig .tc .vmem S1024x1280 .f32) (harg4 : arg4.IsWhole)
    (x0 : Vec F S1024x512 .f32) (x1 : Vec F S1024x1 .f32) (x2 : Vec F S1280x512 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__masked_linear_kernel i arg1 harg1 arg2 harg2 arg3 harg3 arg4 harg4) K := by
  simp only [cc0__masked_linear_kernel_eq_skeleton]; unfold cc0__masked_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = wblk0 V c t := by dsimp only [dat0]
theorem after0_3 (c : Dev nD) (t : Fin cfg0.N) :
    (dat0 V c).after 3 t = out0_3 (iblk0 V c 0 t) (iblk0 V c 1 t) (wblk0 V c t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) :
    (dat0 V c).before 2 t d = (cfg0.win 2).fill (grid0.coords t) d (iblk0 V c 2 t) := by
  unfold Dat.before; rw [if_pos (fetch0_2 t)]
  unfold Dat.fetched Dat.blockOf iblk0; rw [A_eq0]; try rfl

theorem before0_3 (c : Dev nD) (t : Fin cfg0.N) (d) : (dat0 V c).before 3 t d = d :=
  (dat0 V c).before_out_reset 3 rfl t
    (by
      by_cases h : t.val = 0
      · exact .inl h
      · exact .inr ⟨h, flush0_3 _⟩) d

end Cert.KernelIdeal.Hand

end
-- ==== Proof.KI.Body0Ideal.lean ====
import proofs.«420588_j52003464020428_2_alg».proof.Proof.KI.Body0
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem out0_3_eq {F : FTy → Type} [FloatOps F] (x0 : Vec F S1024x512 .f32) (x1 : Vec F S1024x1 .f32) (x2 : Vec F S1280x512 .f32) :
    out0_3 x0 x1 x2 = k0_pay1 x0 x2 x1 := by
  have hz : (![0, 0] : Fin 2 → Nat) = fun _ => 0 := funext fun a => by fin_cases a <;> rfl
  unfold out0_3
  rw [View.canon_unit_zero hz, View.ld_unit_zero hz, View.ld_unit_zero hz, View.ld_unit_zero hz]

/-- An output entry in column `y 1` reads the weights only on their row `y 1`. -/
theorem k0_pay1_congr_row (x0 : Vec Ideal S1024x512 .f32) (x1 : Vec Ideal S1024x1 .f32) (x2 x2' : Vec Ideal S1280x512 .f32)
    (y : S1024x1280.Idx) (h : ∀ z : S1280x512.Idx, (z 0).val = (y 1).val → x2 z = x2' z) :
    k0_pay1 x0 x2 x1 y = k0_pay1 x0 x2' x1 y := by
  unfold k0_pay1 mulf
  congr 1
  simp only [matmul]
  rw [Ideal.matmul_apply, Ideal.matmul_apply]
  congr 1
  refine Finset.sum_congr rfl fun k _ => ?_
  congr 1
  unfold truncf
  exact congrArg _ (h _ rfl)

theorem xsize0_3_2 : ∀ t : Fin cfg0.N, (cfg0.win 3).xsize (grid0.coords t) 1 = (cfg0.win 2).xsize (grid0.coords t) 0 :=
  (by decide +kernel : ∀ t : Fin grid0.N, win0_3.xsize (grid0.coords t) 1 = win0_2.xsize (grid0.coords t) 0)
theorem xsize0_2_1 : ∀ t : Fin cfg0.N, (cfg0.win 2).xsize (grid0.coords t) 1 = 512 :=
  (by decide +kernel : ∀ t : Fin grid0.N, win0_2.xsize (grid0.coords t) 1 = 512)

/-- The output block is cut on its columns where the weights' block is cut on its rows, so its part inside the array does not depend on what lies past the weights' last row. -/
theorem cut_out0_3_fill (t : Fin cfg0.N) (x0 : Vec Ideal S1024x512 .f32) (x1 : Vec Ideal S1024x1 .f32)
    (g : ((cfg0.win 2).xblock (grid0.coords t)).Idx → Elt Ideal .f32) (d d' : S1280x512.Idx → Elt Ideal .f32) :
    (cfg0.win 3).cut (grid0.coords t) (out0_3 x0 x1 ((cfg0.win 2).fill (grid0.coords t) d g))
      = (cfg0.win 3).cut (grid0.coords t) (out0_3 x0 x1 ((cfg0.win 2).fill (grid0.coords t) d' g)) := by
  funext j
  show out0_3 x0 x1 ((cfg0.win 2).fill (grid0.coords t) d g) ((cfg0.win 3).xinj (grid0.coords t) j)
    = out0_3 x0 x1 ((cfg0.win 2).fill (grid0.coords t) d' g) ((cfg0.win 3).xinj (grid0.coords t) j)
  rw [out0_3_eq, out0_3_eq]
  refine k0_pay1_congr_row _ _ _ _ _ fun z hz => ?_
  have hm : (cfg0.win 2).moved (grid0.coords t) z = true := by
    rw [Window.moved_iff]
    intro a
    match a with
    | ⟨0, _⟩ =>
      show (z 0).val < (cfg0.win 2).xsize (grid0.coords t) 0
      have hj : (j 1).val < (cfg0.win 3).xsize (grid0.coords t) 1 := (j 1).isLt
      rw [xsize0_3_2 t] at hj
      have hz' : (z 0).val = (j 1).val := hz
      rw [hz']; exact hj
    | ⟨1, _⟩ =>
      show (z 1).val < (cfg0.win 2).xsize (grid0.coords t) 1
      rw [xsize0_2_1 t]; exact (z 1).isLt
  unfold Window.fill
  rw [dif_pos hm, dif_pos hm]

section Obligation

variable (V : (c : Dev nD) → (b : Ref sig .tc) → Buf (Elt Ideal) ((c : Thread nD τ).loc b))

local notation "𝕄" => MT nD τ sig Unit (Elt Ideal) ℕ (UR sig nD τ) ℕ

def bodyPreI0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPostI0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ (∃ d, owns (c : Thread nD τ) (st0_2 t) fullShare
        ((cfg0.win 2).fill (grid0.coords t) d ((cfg0.win 2).cut (grid0.coords t) ((dat0 V c).after 2 t))))
    ∗ (∃ d, owns (c : Thread nD τ) (st0_3 t) fullShare
        ((cfg0.win 3).fill (grid0.coords t) d ((cfg0.win 3).cut (grid0.coords t) ((dat0 V c).after 3 t)))))

/-- Inside the array the body's result on the blocks as found is its result on the weights' block padded with zeros (`cut_out0_3_fill`). -/
theorem sound_bodyI0 (c : Dev nD) (t : Fin cfg0.N) :
    bodyPreI0 V c t ⊢ wp frame (wpE (defs₀ (F := Ideal)) Variants.none c none) Set.univ (bodyAt0 t) (fun _ => bodyPostI0 V c t) := by
  unfold bodyPreI0 bodyPostI0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t)
    ((cfg0.win 2).fill (grid0.coords t) d2 (iblk0 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg0.win 2).cut (grid0.coords t) (wblk0 V c t) = iblk0 V c 2 t from (cfg0.win 2).cut_fill _ _ _]
    iexact H2
  · iexists (out0_3 (iblk0 V c 0 t) (iblk0 V c 1 t) ((cfg0.win 2).fill (grid0.coords t) d2 (iblk0 V c 2 t)))
    have hc : (cfg0.win 3).cut (grid0.coords t)
          (out0_3 (iblk0 V c 0 t) (iblk0 V c 1 t) ((cfg0.win 2).fill (grid0.coords t) d2 (iblk0 V c 2 t)))
        = (cfg0.win 3).cut (grid0.coords t) (out0_3 (iblk0 V c 0 t) (iblk0 V c 1 t) (wblk0 V c t)) :=
      cut_out0_3_fill t _ _ _ _ _
    rw [(cfg0.win 3).fill_congr_cut (grid0.coords t) hc]
    iexact H3

theorem body_obligation0 (c : Dev nD) :
    BodyObligationLoose (dat0 (F := Ideal) V c) (defs₀ (F := Ideal)) Variants.none () Set.univ := fun t => by
  rw [bigSep_W0, bigSep_W0]
  exact sound_bodyI0 V c t

end Obligation

end Cert.KernelIdeal.Hand

end
-- ==== Proof.KI.Body1.lean ====
import proofs.«420588_j52003464020428_2_alg».proof.Proof.KI.Dat1
import proofs.«420588_j52003464020428_2_alg».proof.Proof.KI.Body0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The four heads run one body. -/
theorem cc1_eq : @cc1__masked_linear_kernel = @cc0__masked_linear_kernel := rfl

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = wblk1 V c t := by dsimp only [dat1]
theorem after1_3 (c : Dev nD) (t : Fin cfg1.N) :
    (dat1 V c).after 3 t = out0_3 (iblk1 V c 0 t) (iblk1 V c 1 t) (wblk1 V c t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) :
    (dat1 V c).before 2 t d = (cfg1.win 2).fill (grid1.coords t) d (iblk1 V c 2 t) := by
  unfold Dat.before; rw [if_pos (fetch1_2 t)]
  unfold Dat.fetched Dat.blockOf iblk1; rw [A_eq1]; try rfl

theorem before1_3 (c : Dev nD) (t : Fin cfg1.N) (d) : (dat1 V c).before 3 t d = d :=
  (dat1 V c).before_out_reset 3 rfl t
    (by
      by_cases h : t.val = 0
      · exact .inl h
      · exact .inr ⟨h, flush1_3 _⟩) d

end Cert.KernelIdeal.Hand

end
-- ==== Proof.KI.Body1Ideal.lean ====
import proofs.«420588_j52003464020428_2_alg».proof.Proof.KI.Body1
import proofs.«420588_j52003464020428_2_alg».proof.Proof.KI.Body0Ideal
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Obligation

variable (V : (c : Dev nD) → (b : Ref sig .tc) → Buf (Elt Ideal) ((c : Thread nD τ).loc b))

local notation "𝕄" => MT nD τ sig Unit (Elt Ideal) ℕ (UR sig nD τ) ℕ

def bodyPreI1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPostI1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (∃ d, owns (c : Thread nD τ) (st1_2 t) fullShare
        ((cfg1.win 2).fill (grid1.coords t) d ((cfg1.win 2).cut (grid1.coords t) ((dat1 V c).after 2 t))))
    ∗ (∃ d, owns (c : Thread nD τ) (st1_3 t) fullShare
        ((cfg1.win 3).fill (grid1.coords t) d ((cfg1.win 3).cut (grid1.coords t) ((dat1 V c).after 3 t)))))

/-- Inside the array the body's result on the blocks as found is its result on the weights' block padded with zeros (`cut_out0_3_fill`). -/
theorem sound_bodyI1 (c : Dev nD) (t : Fin cfg1.N) :
    bodyPreI1 V c t ⊢ wp frame (wpE (defs₀ (F := Ideal)) Variants.none c none) Set.univ (bodyAt1 t) (fun _ => bodyPostI1 V c t) := by
  unfold bodyPreI1 bodyPostI1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, cc1_eq]
  iintro ⟨HΦ, Ho, ⟨%d0, H0⟩, ⟨%d1, H1⟩, ⟨%d2, H2⟩, ⟨%d3, H3⟩⟩
  iapply (sound_kernel0 c Set.univ _ _ _ _ _ _ _ _ _ (iblk1 V c 0 t) (iblk1 V c 1 t)
    ((cfg1.win 2).fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg1.win 2).cut (grid1.coords t) (wblk1 V c t) = iblk1 V c 2 t from (cfg1.win 2).cut_fill _ _ _]
    iexact H2
  · iexists (out0_3 (iblk1 V c 0 t) (iblk1 V c 1 t) ((cfg1.win 2).fill (grid1.coords t) d2 (iblk1 V c 2 t)))
    have hc : (cfg1.win 3).cut (grid1.coords t)
          (out0_3 (iblk1 V c 0 t) (iblk1 V c 1 t) ((cfg1.win 2).fill (grid1.coords t) d2 (iblk1 V c 2 t)))
        = (cfg1.win 3).cut (grid1.coords t) (out0_3 (iblk1 V c 0 t) (iblk1 V c 1 t) (wblk1 V c t)) :=
      cut_out0_3_fill t _ _ _ _ _
    rw [(cfg1.win 3).fill_congr_cut (grid1.coords t) hc]
    iexact H3

theorem body_obligation1 (c : Dev nD) :
    BodyObligationLoose (dat1 (F := Ideal) V c) (defs₀ (F := Ideal)) Variants.none () Set.univ := fun t => by
  rw [bigSep_W1, bigSep_W1]
  exact sound_bodyI1 V c t

end Obligation

end Cert.KernelIdeal.Hand

end
-- ==== Proof.KI.Body2.lean ====
import proofs.«420588_j52003464020428_2_alg».proof.Proof.KI.Dat2
import proofs.«420588_j52003464020428_2_alg».proof.Proof.KI.Body0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The four heads run one body. -/
theorem cc2_eq : @cc2__masked_linear_kernel = @cc0__masked_linear_kernel := rfl

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = wblk2 V c t := by dsimp only [dat2]
theorem after2_3 (c : Dev nD) (t : Fin cfg2.N) :
    (dat2 V c).after 3 t = out0_3 (iblk2 V c 0 t) (iblk2 V c 1 t) (wblk2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) :
    (dat2 V c).before 2 t d = (cfg2.win 2).fill (grid2.coords t) d (iblk2 V c 2 t) := by
  unfold Dat.before; rw [if_pos (fetch2_2 t)]
  unfold Dat.fetched Dat.blockOf iblk2; rw [A_eq2]; try rfl

theorem before2_3 (c : Dev nD) (t : Fin cfg2.N) (d) : (dat2 V c).before 3 t d = d :=
  (dat2 V c).before_out_reset 3 rfl t
    (by
      by_cases h : t.val = 0
      · exact .inl h
      · exact .inr ⟨h, flush2_3 _⟩) d

end Cert.KernelIdeal.Hand

end
-- ==== Proof.KI.Body2Ideal.lean ====
import proofs.«420588_j52003464020428_2_alg».proof.Proof.KI.Body2
import proofs.«420588_j52003464020428_2_alg».proof.Proof.KI.Body0Ideal
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Obligation

variable (V : (c : Dev nD) → (b : Ref sig .tc) → Buf (Elt Ideal) ((c : Thread nD τ).loc b))

local notation "𝕄" => MT nD τ sig Unit (Elt Ideal) ℕ (UR sig nD τ) ℕ

def bodyPreI2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPostI2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ (∃ d, owns (c : Thread nD τ) (st2_2 t) fullShare
        ((cfg2.win 2).fill (grid2.coords t) d ((cfg2.win 2).cut (grid2.coords t) ((dat2 V c).after 2 t))))
    ∗ (∃ d, owns (c : Thread nD τ) (st2_3 t) fullShare
        ((cfg2.win 3).fill (grid2.coords t) d ((cfg2.win 3).cut (grid2.coords t) ((dat2 V c).after 3 t)))))

/-- Inside the array the body's result on the blocks as found is its result on the weights' block padded with zeros (`cut_out0_3_fill`). -/
theorem sound_bodyI2 (c : Dev nD) (t : Fin cfg2.N) :
    bodyPreI2 V c t ⊢ wp frame (wpE (defs₀ (F := Ideal)) Variants.none c none) Set.univ (bodyAt2 t) (fun _ => bodyPostI2 V c t) := by
  unfold bodyPreI2 bodyPostI2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, cc2_eq]
  iintro ⟨HΦ, Ho, ⟨%d0, H0⟩, ⟨%d1, H1⟩, ⟨%d2, H2⟩, ⟨%d3, H3⟩⟩
  iapply (sound_kernel0 c Set.univ _ _ _ _ _ _ _ _ _ (iblk2 V c 0 t) (iblk2 V c 1 t)
    ((cfg2.win 2).fill (grid2.coords t) d2 (iblk2 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg2.win 2).cut (grid2.coords t) (wblk2 V c t) = iblk2 V c 2 t from (cfg2.win 2).cut_fill _ _ _]
    iexact H2
  · iexists (out0_3 (iblk2 V c 0 t) (iblk2 V c 1 t) ((cfg2.win 2).fill (grid2.coords t) d2 (iblk2 V c 2 t)))
    have hc : (cfg2.win 3).cut (grid2.coords t)
          (out0_3 (iblk2 V c 0 t) (iblk2 V c 1 t) ((cfg2.win 2).fill (grid2.coords t) d2 (iblk2 V c 2 t)))
        = (cfg2.win 3).cut (grid2.coords t) (out0_3 (iblk2 V c 0 t) (iblk2 V c 1 t) (wblk2 V c t)) :=
      cut_out0_3_fill t _ _ _ _ _
    rw [(cfg2.win 3).fill_congr_cut (grid2.coords t) hc]
    iexact H3

theorem body_obligation2 (c : Dev nD) :
    BodyObligationLoose (dat2 (F := Ideal) V c) (defs₀ (F := Ideal)) Variants.none () Set.univ := fun t => by
  rw [bigSep_W2, bigSep_W2]
  exact sound_bodyI2 V c t

end Obligation

end Cert.KernelIdeal.Hand

end
-- ==== Proof.KI.Body3.lean ====
import proofs.«420588_j52003464020428_2_alg».proof.Proof.KI.Dat3
import proofs.«420588_j52003464020428_2_alg».proof.Proof.KI.Body0
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

local notation "𝕄" => MT nD τ sig Unit (Elt F) ℕ (UR sig nD τ) ℕ

/-- The four heads run one body. -/
theorem cc3_eq : @cc3__masked_linear_kernel = @cc0__masked_linear_kernel := rfl

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = wblk3 V c t := by dsimp only [dat3]
theorem after3_3 (c : Dev nD) (t : Fin cfg3.N) :
    (dat3 V c).after 3 t = out0_3 (iblk3 V c 0 t) (iblk3 V c 1 t) (wblk3 V c t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) :
    (dat3 V c).before 2 t d = (cfg3.win 2).fill (grid3.coords t) d (iblk3 V c 2 t) := by
  unfold Dat.before; rw [if_pos (fetch3_2 t)]
  unfold Dat.fetched Dat.blockOf iblk3; rw [A_eq3]; try rfl

theorem before3_3 (c : Dev nD) (t : Fin cfg3.N) (d) : (dat3 V c).before 3 t d = d :=
  (dat3 V c).before_out_reset 3 rfl t
    (by
      by_cases h : t.val = 0
      · exact .inl h
      · exact .inr ⟨h, flush3_3 _⟩) d

end Cert.KernelIdeal.Hand

end
-- ==== Proof.KI.Body3Ideal.lean ====
import proofs.«420588_j52003464020428_2_alg».proof.Proof.KI.Body3
import proofs.«420588_j52003464020428_2_alg».proof.Proof.KI.Body0Ideal
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Obligation

variable (V : (c : Dev nD) → (b : Ref sig .tc) → Buf (Elt Ideal) ((c : Thread nD τ).loc b))

local notation "𝕄" => MT nD τ sig Unit (Elt Ideal) ℕ (UR sig nD τ) ℕ

def bodyPreI3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

def bodyPostI3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (∃ d, owns (c : Thread nD τ) (st3_2 t) fullShare
        ((cfg3.win 2).fill (grid3.coords t) d ((cfg3.win 2).cut (grid3.coords t) ((dat3 V c).after 2 t))))
    ∗ (∃ d, owns (c : Thread nD τ) (st3_3 t) fullShare
        ((cfg3.win 3).fill (grid3.coords t) d ((cfg3.win 3).cut (grid3.coords t) ((dat3 V c).after 3 t)))))

/-- Inside the array the body's result on the blocks as found is its result on the weights' block padded with zeros (`cut_out0_3_fill`). -/
theorem sound_bodyI3 (c : Dev nD) (t : Fin cfg3.N) :
    bodyPreI3 V c t ⊢ wp frame (wpE (defs₀ (F := Ideal)) Variants.none c none) Set.univ (bodyAt3 t) (fun _ => bodyPostI3 V c t) := by
  unfold bodyPreI3 bodyPostI3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, cc3_eq]
  iintro ⟨HΦ, Ho, ⟨%d0, H0⟩, ⟨%d1, H1⟩, ⟨%d2, H2⟩, ⟨%d3, H3⟩⟩
  iapply (sound_kernel0 c Set.univ _ _ _ _ _ _ _ _ _ (iblk3 V c 0 t) (iblk3 V c 1 t)
    ((cfg3.win 2).fill (grid3.coords t) d2 (iblk3 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]
  · iexists d2
    rw [show (cfg3.win 2).cut (grid3.coords t) (wblk3 V c t) = iblk3 V c 2 t from (cfg3.win 2).cut_fill _ _ _]
    iexact H2
  · iexists (out0_3 (iblk3 V c 0 t) (iblk3 V c 1 t) ((cfg3.win 2).fill (grid3.coords t) d2 (iblk3 V c 2 t)))
    have hc : (cfg3.win 3).cut (grid3.coords t)
          (out0_3 (iblk3 V c 0 t) (iblk3 V c 1 t) ((cfg3.win 2).fill (grid3.coords t) d2 (iblk3 V c 2 t)))
        = (cfg3.win 3).cut (grid3.coords t) (out0_3 (iblk3 V c 0 t) (iblk3 V c 1 t) (wblk3 V c t)) :=
      cut_out0_3_fill t _ _ _ _ _
    rw [(cfg3.win 3).fill_congr_cut (grid3.coords t) hc]
    iexact H3

theorem body_obligation3 (c : Dev nD) :
    BodyObligationLoose (dat3 (F := Ideal) V c) (defs₀ (F := Ideal)) Variants.none () Set.univ := fun t => by
  rw [bigSep_W3, bigSep_W3]
  exact sound_bodyI3 V c t

end Obligation

end Cert.KernelIdeal.Hand

end
-- ==== Proof.KI.Body4.lean ====
import proofs.«420588_j52003464020428_2_alg».proof.Proof.KI.Dat4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg4 (F := F)).Adm)
variable (V : (c : Dev nD) → (b : Ref sig .tc) → Buf (Elt F) ((c : Thread nD τ).loc b))

abbrev r4_in0 : Rect S1x128x512 := Rect.unit (s := S1x128x512) ![0, 0, 0] S1x128x512.size inb_S1x128x512_S1x128x512_0_0_0
abbrev r4_in1 : Rect S1x2500x512 := Rect.unit (s := S1x2500x512) ![0, 0, 0] S1x2500x512.size inb_S1x2500x512_S1x2500x512_0_0_0

theorem cover4_2 (p0 : Vec F S1x128x2500 .f32) (y : S1x128x2500.Idx) :
    ∃ pc ∈ ([⟨r4_0, p0⟩] : List (View.Piece (Elt F) S1x128x2500 .f32)), y ∈ pc.1.set :=
  View.cover_of_tiled [⟨r4_0, p0⟩] S1x128x2500.size (by rfl) y

theorem out4_2_ld (x0 : Vec F S1x128x512 .f32) (x1 : Vec F S1x2500x512 .f32) :
    View.canon [(⟨r4_0, k4_pay1 (View.ld x0 r4_in0) (View.ld x1 r4_in1)⟩ : View.Piece (Elt F) S1x128x2500 .f32)] = out4_2 x0 x1 := by
  unfold out4_2
  rw [View.ld_unit_zero (by funext i; fin_cases i <;> rfl), View.ld_unit_zero (by funext i; fin_cases i <;> rfl)]

theorem out4_2_eq (x0 : Vec F S1x128x512 .f32) (x1 : Vec F S1x2500x512 .f32) :
    out4_2 x0 x1 = k4_pay1 x0 x1 := by
  unfold out4_2
  exact View.canon_unit_zero (by funext i; fin_cases i <;> rfl) _ _

set_option maxHeartbeats 1000000 in
/-- The body reads both inputs whole and stores the output whole; the table is passed and never read. -/
theorem sound_kernel4 (c : Dev nD) (E : Set ℕ) (i : grid4.Coords)
    (arg1 : Memref sig .tc .smem S8 .i32) (harg1 : arg1.IsWhole)
    (arg2 : Memref sig .tc .vmem S1x128x512 .f32) (harg2 : arg2.IsWhole)
    (arg3 : Memref sig .tc .vmem S1x2500x512 .f32) (harg3 : arg3.IsWhole)
    (arg4 : Memref sig .tc .vmem S1x128x2500 .f32) (harg4 : arg4.IsWhole)
    (x0 : Vec F S1x128x512 .f32) (x1 : Vec F S1x2500x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E
          (cc4__lang_linear_kernel i arg1 harg1 arg2 harg2 arg3 harg3 arg4 harg4) K := by
  simp only [cc4__lang_linear_kernel_eq_skeleton]; unfold cc4__lang_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ (cover4_2 _)).trans (out4_2_ld _ _)

theorem A_eq4 (c : Dev nD) (w : Fin (cfg4 a).W) : (dat4 a V c).A w = V c (Pipeline.arrRef spec4 w) := by
  dsimp only [dat4]

theorem after4_0 (c : Dev nD) (t : Fin (cfg4 a).N) : (dat4 a V c).after (0 : Fin 3) t = iblk4 a V c (0 : Fin 3) t := by
  dsimp only [dat4]; try rfl
theorem after4_1 (c : Dev nD) (t : Fin (cfg4 a).N) : (dat4 a V c).after (1 : Fin 3) t = iblk4 a V c (1 : Fin 3) t := by
  dsimp only [dat4]; try rfl
theorem after4_2 (c : Dev nD) (t : Fin (cfg4 a).N) :
    (dat4 a V c).after (2 : Fin 3) t = out4_2 (iblk4 a V c (0 : Fin 3) t) (iblk4 a V c (1 : Fin 3) t) := by
  dsimp only [dat4]; try rfl

theorem Φ_eq4 (c : Dev nD) (t : Fin ((cfg4 a).N + 1)) : (dat4 a V c).Φ t = Φ4 a c := by dsimp only [dat4]

theorem before4_0 (c : Dev nD) (t : Fin (cfg4 a).N) (d) : (dat4 a V c).before (0 : Fin 3) t d = iblk4 a V c (0 : Fin 3) t :=
  ((dat4 a V c).before_in_eq_fetched (0 : Fin 3) rfl (fun _ => rfl) (fun _ _ _ => rfl)
      (fun t => by rw [after4_0]; unfold Dat.blockOf iblk4; rw [A_eq4]; try rfl) t d).trans
    (by unfold Dat.fetched Dat.blockOf iblk4; rw [A_eq4]; try rfl)

theorem before4_1 (c : Dev nD) (t : Fin (cfg4 a).N) (d) : (dat4 a V c).before (1 : Fin 3) t d = iblk4 a V c (1 : Fin 3) t :=
  ((dat4 a V c).before_in_eq_fetched (1 : Fin 3) rfl (fun _ => rfl) (fun _ _ _ => rfl)
      (fun t => by rw [after4_1]; unfold Dat.blockOf iblk4; rw [A_eq4]; try rfl) t d).trans
    (by unfold Dat.fetched Dat.blockOf iblk4; rw [A_eq4]; try rfl)

abbrev st4_0 (t : Fin (cfg4 a).N) := ((cfg4 a).win (0 : Fin 3)).stage ((cfg4 a).slots t (0 : Fin 3))
abbrev st4_1 (t : Fin (cfg4 a).N) := ((cfg4 a).win (1 : Fin 3)).stage ((cfg4 a).slots t (1 : Fin 3))
abbrev st4_2 (t : Fin (cfg4 a).N) := ((cfg4 a).win (2 : Fin 3)).stage ((cfg4 a).slots t (2 : Fin 3))

abbrev bodyAt4 (t : Fin (cfg4 a).N) : Prog (TpuEff nD τ sig (Elt F) Λ₀ .tc) PUnit :=
  cc4__lang_linear_kernel (grid4.coords t) (Memref.whole main_arg1) (Memref.isWhole_whole _)
    (spec4_0.stage ((cfg4 a).slots t (0 : Fin 3))) (hstage4_0 (((cfg4 a).slots t (0 : Fin 3)).cast nbuf4_0))
    (spec4_1.stage ((cfg4 a).slots t (1 : Fin 3))) (hstage4_1 (((cfg4 a).slots t (1 : Fin 3)).cast nbuf4_1))
    (spec4_2.stage ((cfg4 a).slots t (2 : Fin 3))) (hstage4_2 (((cfg4 a).slots t (2 : Fin 3)).cast nbuf4_2))

def bodyPre4 (c : Dev nD) (t : Fin (cfg4 a).N) : sProp 𝕄 :=
  iprop((dat4 a V c).Φ t.castSucc ∗ (dat4 a V c).owesAt () t.castSucc
    ∗ (∃ d, owns (c : Thread nD τ) (st4_0 a t) fullShare ((dat4 a V c).before (0 : Fin 3) t d))
    ∗ (∃ d, owns (c : Thread nD τ) (st4_1 a t) fullShare ((dat4 a V c).before (1 : Fin 3) t d))
    ∗ (∃ d, owns (c : Thread nD τ) (st4_2 a t) fullShare ((dat4 a V c).before (2 : Fin 3) t d)))

def bodyPost4 (c : Dev nD) (t : Fin (cfg4 a).N) : sProp 𝕄 :=
  iprop((dat4 a V c).Φ t.succ ∗ (dat4 a V c).owesAt () t.succ
    ∗ owns (c : Thread nD τ) (st4_0 a t) fullShare ((dat4 a V c).after (0 : Fin 3) t)
    ∗ owns (c : Thread nD τ) (st4_1 a t) fullShare ((dat4 a V c).after (1 : Fin 3) t)
    ∗ owns (c : Thread nD τ) (st4_2 a t) fullShare ((dat4 a V c).after (2 : Fin 3) t))

theorem sound_body4 (c : Dev nD) (t : Fin (cfg4 a).N) :
    bodyPre4 a V c t ⊢ wp frame (wpE (defs₀ (F := F)) Variants.none c none) Set.univ (bodyAt4 a t) (fun _ => bodyPost4 a V c t) := by
  unfold bodyPre4 bodyPost4 bodyAt4
  simp only [before4_0, before4_1]
  rewrite [show (dat4 a V c).Φ t.succ = (dat4 a V c).Φ t.castSucc from rfl,
    show (dat4 a V c).owesAt () t.succ = (dat4 a V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ _ _ (iblk4 a V c (0 : Fin 3) t) (iblk4 a V c (1 : Fin 3) t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) :
    BodyObligation (dat4 (F := F) a V c) (defs₀ (F := F)) Variants.none () Set.univ := fun t => by
  rw [bigSep_W4, bigSep_W4]
  exact sound_body4 a V c t

end Cert.KernelIdeal.Hand

end
-- ==== Proof.KI.RunValues.lean ====
import proofs.«420588_j52003464020428_2_alg».proof.Proof.KI.LaunchIdeal
import proofs.«420588_j52003464020428_2_alg».proof.Proof.KI.Outs
import proofs.«420588_j52003464020428_2_alg».proof.Proof.KI.Ids
import proofs.«420588_j52003464020428_2_alg».proof.Proof.KI.Reg0
import proofs.«420588_j52003464020428_2_alg».proof.Proof.KI.Reg1
import proofs.«420588_j52003464020428_2_alg».proof.Proof.KI.Reg2
import proofs.«420588_j52003464020428_2_alg».proof.Proof.KI.Reg3
import proofs.«420588_j52003464020428_2_alg».proof.Proof.KI.Reg4
import proofs.«420588_j52003464020428_2_alg».proof.Proof.KI.Body0Ideal
import proofs.«420588_j52003464020428_2_alg».proof.Proof.KI.Body1Ideal
import proofs.«420588_j52003464020428_2_alg».proof.Proof.KI.Body2Ideal
import proofs.«420588_j52003464020428_2_alg».proof.Proof.KI.Body3Ideal
import proofs.«420588_j52003464020428_2_alg».proof.Proof.KI.Body4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable [Cert.Pre_finite_inputs.Facts]

set_option backward.isDefEq.respectTransparency.types false in
/-- Under the precondition the ids are in range, so every region's record exists and the run names all seven results. -/
theorem run_values (m : (ℓ : Loc nD τ sig) → Buf (Elt Ideal) ℓ) (ρ : Dev nD → PrngReg) (hP : PreM (F := Ideal) m) :
    θ_run defs (onTc (τ := τ) (main (F := Ideal))) ⟨m, fun _ => 0, ρ⟩ (fun r => Ends m (outsOf m (ok4_of_pre m hP)) r.2.mem) :=
  have hok : ok4 (F := Ideal) (tbl m) := ok4_of_pre m hP
  run_launch m (outsOf m hok) ρ (adm m hok) (pdats m hok)
    (reg0 m hok (outsOf m hok) (fun c => body_obligation0 (VE m) c) (outsOf_0 m hok)) (fun _ => .rfl) (fun _ => .rfl)
    (reg1 m hok (outsOf m hok) (fun c => body_obligation1 (VE m) c) (outsOf_1 m hok)) (fun _ => .rfl) (fun _ => .rfl)
    (reg2 m hok (outsOf m hok) (fun c => body_obligation2 (VE m) c) (outsOf_2 m hok)) (fun _ => .rfl) (fun _ => .rfl)
    (reg3 m hok (outsOf m hok) (fun c => body_obligation3 (VE m) c) (outsOf_3 m hok)) (fun _ => .rfl) (fun _ => .rfl)
    (reg4 m hok (outsOf m hok) (fun c => (body_obligation4 (adm m hok 4) (VE m) c).loose) (outsOf_4 m hok)) (fun _ => .rfl) (fun _ => .rfl)

end Cert.KernelIdeal.Hand

end
-- ==== Proof.KI.Final0Pay.lean ====
import proofs.«420588_j52003464020428_2_alg».proof.Proof.Gen.KernelIdeal.Skeleton
import Idealize.ShloMosaic.Lib.ValueIdx
import Idealize.ShloMosaic.PureOps.Ideal.Laws
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

theorem lhs_k0_0 (i : S1024x1280.Idx) (q : dot_S1024x512_S1280x512_S1024x1280_1_1_0_0_n_n.contr.Idx) :
    (dot_S1024x512_S1280x512_S1024x1280_1_1_0_0_n_n.lhsIdx i q 0).val = (i 0).val := by
  unfold DotDims.lhsIdx
  rw [dif_neg (show ¬(0 : Fin S1024x512.rank) ∈ dot_S1024x512_S1280x512_S1024x1280_1_1_0_0_n_n.lhsBatch by decide), dif_pos (show (0 : Fin S1024x512.rank) ∈ dot_S1024x512_S1280x512_S1024x1280_1_1_0_0_n_n.lhsNonContracting by decide)]
  rfl

theorem lhs_k0_1 (i : S1024x1280.Idx) (q : dot_S1024x512_S1280x512_S1024x1280_1_1_0_0_n_n.contr.Idx) :
    (dot_S1024x512_S1280x512_S1024x1280_1_1_0_0_n_n.lhsIdx i q 1).val = (q ⟨0, by decide⟩).val :=
  dot_S1024x512_S1280x512_S1024x1280_1_1_0_0_n_n.lhsIdx_val_of_single rfl i q

theorem rhs_k0_0 (i : S1024x1280.Idx) (q : dot_S1024x512_S1280x512_S1024x1280_1_1_0_0_n_n.contr.Idx) :
    (dot_S1024x512_S1280x512_S1024x1280_1_1_0_0_n_n.rhsIdx i q 0).val = (i 1).val := by
  unfold DotDims.rhsIdx
  rw [dif_neg (show ¬(0 : Fin S1280x512.rank) ∈ dot_S1024x512_S1280x512_S1024x1280_1_1_0_0_n_n.rhsBatch by decide), dif_pos (show (0 : Fin S1280x512.rank) ∈ dot_S1024x512_S1280x512_S1024x1280_1_1_0_0_n_n.rhsNonContracting by decide)]
  rfl

theorem rhs_k0_1 (i : S1024x1280.Idx) (q : dot_S1024x512_S1280x512_S1024x1280_1_1_0_0_n_n.contr.Idx) :
    (dot_S1024x512_S1280x512_S1024x1280_1_1_0_0_n_n.rhsIdx i q 1).val = (q ⟨0, by decide⟩).val :=
  dot_S1024x512_S1280x512_S1024x1280_1_1_0_0_n_n.rhsIdx_val_of_single rfl i q

/-- Over the extended reals the narrowings are the identity and the product into a zero accumulator is the sum over the contracted axis: entry (i, j) is row i against row j, scaled by the mask's entry i. -/
theorem pay0_apply (x0 : Vec Ideal S1024x512 .f32) (x1 : Vec Ideal S1024x1 .f32) (x2 : Vec Ideal S1280x512 .f32)
    (i : Fin 1024) (j : Fin 1280) :
    k0_pay1 (F := Ideal) x0 x2 x1 (ix2 i j) = (∑ k : Fin 512, x0 (ix2 i k) * x2 (ix2 j k)) * x1 (ix2 i (0 : Fin 1)) := by
  unfold k0_pay1
  simp only [shapeCast_self, matmul]
  rw [mulf_apply, Ideal.matmul_constant_zero_apply,
    ← Equiv.sum_comp (contrEquiv1 dot_S1024x512_S1280x512_S1024x1280_1_1_0_0_n_n 512 rfl rfl).symm,
    broadcastTo_apply x1 _ (ix2 i j) (ix2 i (0 : Fin 1)) (fun a => by
      match a with
      | ⟨0, _⟩ => rfl
      | ⟨1, _⟩ => rfl)]
  congr 1
  refine Finset.sum_congr rfl fun k _ => ?_
  have hk := contrEquiv1_symm_val dot_S1024x512_S1280x512_S1024x1280_1_1_0_0_n_n 512 rfl rfl k
  have el : dot_S1024x512_S1280x512_S1024x1280_1_1_0_0_n_n.lhsIdx (ix2 i j) ((contrEquiv1 dot_S1024x512_S1280x512_S1024x1280_1_1_0_0_n_n 512 rfl rfl).symm k) = ix2 i k := funext fun a => Fin.ext (by
    match a with
    | ⟨0, _⟩ => exact lhs_k0_0 _ _
    | ⟨1, _⟩ => exact (lhs_k0_1 _ _).trans hk)
  have er : dot_S1024x512_S1280x512_S1024x1280_1_1_0_0_n_n.rhsIdx (ix2 i j) ((contrEquiv1 dot_S1024x512_S1280x512_S1024x1280_1_1_0_0_n_n 512 rfl rfl).symm k) = ix2 j k := funext fun a => Fin.ext (by
    match a with
    | ⟨0, _⟩ => exact rhs_k0_0 _ _
    | ⟨1, _⟩ => exact (rhs_k0_1 _ _).trans hk)
  rw [truncf_apply, truncf_apply, el, er]

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev Sx : Shape := ⟨2, ![1024, 512]⟩

abbrev Sw : Shape := ⟨2, ![25000, 512]⟩

abbrev Sm : Shape := ⟨2, ![1024, 1]⟩

abbrev So : Shape := ⟨2, ![1024, 25000]⟩

abbrev Sh : Shape := ⟨3, ![8, 128, 512]⟩

abbrev SW : Shape := ⟨3, ![6, 2500, 512]⟩

abbrev Sl : Shape := ⟨3, ![8, 128, 2500]⟩

/-- The folded head: row i against weight row j over the hidden axis, times the mask's entry for row i. -/
def G_lin (x : Sx.Idx → EReal) (w : Sw.Idx → EReal) (msk : Sm.Idx → EReal) : So.Idx → EReal :=
  fun i => (∑ k : Fin 512, x (ix2 (i 0) k) * w (ix2 (i 1) k)) * msk (ix2 (i 0) (0 : Fin 1))

theorem G_lin_apply (x : Sx.Idx → EReal) (w : Sw.Idx → EReal) (msk : Sm.Idx → EReal) (i : Fin 1024) (j : Fin 25000) :
    G_lin x w msk (ix2 i j) = (∑ k : Fin 512, x (ix2 i k) * w (ix2 j k)) * msk (ix2 i (0 : Fin 1)) := rfl

/-- The language head: row s of sample b against row v of the slab `ids b`. -/
def G_lang (x : Sh.Idx → EReal) (W : SW.Idx → EReal) (ids : Fin 8 → Fin 6) : Sl.Idx → EReal :=
  fun i => ∑ k : Fin 512, x (ix3 (i 0) (i 1) k) * W (ix3 (ids (i 0)) (i 2) k)

theorem G_lang_apply (x : Sh.Idx → EReal) (W : SW.Idx → EReal) (ids : Fin 8 → Fin 6) (b : Fin 8) (s : Fin 128) (v : Fin 2500) :
    G_lang x W ids (ix3 b s v) = ∑ k : Fin 512, x (ix3 b s k) * W (ix3 (ids b) v k) := rfl

end Cert.Spec

end
-- ==== Proof.KI.Final0.lean ====
import proofs.«420588_j52003464020428_2_alg».proof.Proof.KI.Body0Ideal
import proofs.«420588_j52003464020428_2_alg».proof.Proof.KI.Final0Pay
import proofs.«420588_j52003464020428_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

theorem idx_facts0 : ∀ t : Fin grid0.N,
    win0_0.index t (0 : Fin 2) = 0 ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = 0 ∧ win0_3.index t (1 : Fin 2) = t.val := by
  decide +kernel

theorem xsize_facts0 : ∀ t : Fin grid0.N,
    win0_2.xsize (grid0.coords t) (0 : Fin 2) = win0_3.xsize (grid0.coords t) (1 : Fin 2)
  ∧ win0_2.xsize (grid0.coords t) (1 : Fin 2) = 512
  ∧ win0_3.xsize (grid0.coords t) (0 : Fin 2) = 1024
  ∧ win0_3.xsize (grid0.coords t) (1 : Fin 2) = min 1280 (25000 - t.val * 1280) := by
  decide +kernel

theorem xinj_out0 (t : Fin cfg0.N) (j : ((cfg0.win 3).xblock (grid0.coords t)).Idx) (h0 : (j 0).val < 1024) (h1 : (j 1).val < 1280) :
    (cfg0.win 3).xinj (grid0.coords t) j = ix2 (⟨(j 0).val, h0⟩ : Fin 1024) (⟨(j 1).val, h1⟩ : Fin 1280) :=
  funext fun a => by
    match a with
    | ⟨0, _⟩ => rfl
    | ⟨1, _⟩ => rfl

section Blocks

variable (x : Cert.Spec.Sx.Idx → EReal) (w : Cert.Spec.Sw.Idx → EReal) (msk : Cert.Spec.Sm.Idx → EReal)

/-- The three input blocks at a grid point, read off arbitrary arrays: the four heads differ only in which arrays these are. -/
abbrev xblk (t : Fin cfg0.N) : Vec Ideal S1024x512 .f32 := ((cfg0.win 0).blk t).view.read (Elt Ideal) x
abbrev mblk (t : Fin cfg0.N) : Vec Ideal S1024x1 .f32 := ((cfg0.win 1).blk t).view.read (Elt Ideal) msk
abbrev wfill (t : Fin cfg0.N) : Vec Ideal S1280x512 .f32 :=
  (cfg0.win 2).fill (grid0.coords t) (fun _ => Scalar.ofBits (F := Ideal) .f32 0#32) (((cfg0.win 2).blk t).view.read (Elt Ideal) w)

theorem read_x0 (t : Fin cfg0.N) (i : Fin 1024) (k : Fin 512) : xblk x t (ix2 i k) = x (ix2 i k) := by
  obtain ⟨e0, e1, -⟩ := idx_facts0 t
  show x (((cfg0.win 0).blk t).view.emb (ix2 i k)) = x (ix2 i k)
  refine congrArg _ (funext fun a => Fin.ext ?_)
  match a with
  | ⟨0, _⟩ => show win0_0.index t (0 : Fin 2) * 1024 + 1 * i.val = i.val; rw [e0]; omega
  | ⟨1, _⟩ => show win0_0.index t (1 : Fin 2) * 512 + 1 * k.val = k.val; rw [e1]; omega

theorem read_msk0 (t : Fin cfg0.N) (i : Fin 1024) : mblk msk t (ix2 i (0 : Fin 1)) = msk (ix2 i (0 : Fin 1)) := by
  obtain ⟨-, -, e2, e3, -⟩ := idx_facts0 t
  show msk (((cfg0.win 1).blk t).view.emb (ix2 i (0 : Fin 1))) = msk (ix2 i (0 : Fin 1))
  refine congrArg _ (funext fun a => Fin.ext ?_)
  match a with
  | ⟨0, _⟩ => show win0_1.index t (0 : Fin 2) * 1024 + 1 * i.val = i.val; rw [e2]; omega
  | ⟨1, _⟩ => show win0_1.index t (1 : Fin 2) * 1 + 1 * 0 = 0; rw [e3]

theorem read_w0 (t : Fin cfg0.N) (jj : Fin 1280) (k : Fin 512)
    (hjj : jj.val < win0_3.xsize (grid0.coords t) (1 : Fin 2)) (hrow : t.val * 1280 + jj.val < 25000) :
    wfill w t (ix2 jj k) = w (ix2 (⟨t.val * 1280 + jj.val, hrow⟩ : Fin 25000) k) := by
  obtain ⟨x0, x1, -⟩ := xsize_facts0 t
  obtain ⟨-, -, -, -, e4, e5, -⟩ := idx_facts0 t
  let y : ((cfg0.win 2).xblock (grid0.coords t)).Idx := fun a => match a with
    | ⟨0, _⟩ => ⟨jj.val, Nat.lt_of_lt_of_eq hjj x0.symm⟩
    | ⟨1, _⟩ => ⟨k.val, Nat.lt_of_lt_of_eq k.isLt x1.symm⟩
  have ey : ix2 jj k = (cfg0.win 2).xinj (grid0.coords t) y := funext fun a => by
    match a with
    | ⟨0, _⟩ => rfl
    | ⟨1, _⟩ => rfl
  unfold wfill
  rw [ey, Window.fill_xinj]
  show w (((cfg0.win 2).blk t).view.emb y) = _
  refine congrArg _ (funext fun a => Fin.ext ?_)
  match a with
  | ⟨0, _⟩ => show win0_2.index t (0 : Fin 2) * 1280 + 1 * jj.val = t.val * 1280 + jj.val; rw [e4]; omega
  | ⟨1, _⟩ => show win0_2.index t (1 : Fin 2) * 512 + 1 * k.val = k.val; rw [e5]; omega

/-- What a grid point writes back is the specification read through its block: entry (i, j) of the block is row i against weight row 1280·t + j, scaled by the mask. -/
theorem flushed_lin (t : Fin cfg0.N) :
    (cfg0.win 3).cut (grid0.coords t) (out0_3 (xblk x t) (mblk msk t) (wfill w t))
      = ((cfg0.win 3).blk t).view.read (Elt Ideal) (Cert.Spec.G_lin x w msk) := by
  rw [out0_3_eq]
  funext j
  show k0_pay1 (xblk x t) (wfill w t) (mblk msk t) ((cfg0.win 3).xinj (grid0.coords t) j) = Cert.Spec.G_lin x w msk (((cfg0.win 3).blk t).view.emb j)
  obtain ⟨-, -, x2, x3⟩ := xsize_facts0 t
  obtain ⟨-, -, -, -, -, -, e6, e7⟩ := idx_facts0 t
  have hj0 : (j 0).val < 1024 := Nat.lt_of_lt_of_eq (j 0).isLt x2
  have hj1' : (j 1).val < min 1280 (25000 - t.val * 1280) := Nat.lt_of_lt_of_eq (j 1).isLt x3
  have hj1 : (j 1).val < 1280 := by omega
  have hcol : t.val * 1280 + (j 1).val < 25000 := by omega
  have eemb : ((cfg0.win 3).blk t).view.emb j = ix2 (⟨(j 0).val, hj0⟩ : Fin 1024) (⟨t.val * 1280 + (j 1).val, hcol⟩ : Fin 25000) := by
    funext a; apply Fin.ext
    match a with
    | ⟨0, _⟩ => show win0_3.index t (0 : Fin 2) * 1024 + 1 * (j 0).val = (j 0).val; rw [e6]; omega
    | ⟨1, _⟩ => show win0_3.index t (1 : Fin 2) * 1280 + 1 * (j 1).val = t.val * 1280 + (j 1).val; rw [e7]; omega
  rw [xinj_out0 t j hj0 hj1, pay0_apply, eemb, Cert.Spec.G_lin_apply, read_msk0]
  congr 1
  refine Finset.sum_congr rfl fun k _ => ?_
  rw [read_x0, read_w0 w t ⟨(j 1).val, hj1⟩ k (j 1).isLt hcol]

end Blocks

theorem mem_blk0 (t : Fin cfg0.N) (i : S1024x25000.Idx) :
    i ∈ ((cfg0.win 3).blk t).view.set ↔ ∀ a : Fin 2, win0_3.index t a * S1024x1280.size a ≤ (i a).val
      ∧ (i a).val < win0_3.index t a * S1024x1280.size a + win0_3.xsize (grid0.coords t) a := by
  show i ∈ ((View.whole main_v17).slice (win0_3.rect t)).set ↔ _
  rw [View.set_slice_whole, Rect.mem_set_unit]
  exact Iff.rfl

/-- Column v lies in the block of point v / 1280. -/
theorem cover0 (i : S1024x25000.Idx) : ∃ t : Fin cfg0.N, (cfg0.win 3).flush t = true ∧ i ∈ ((cfg0.win 3).blk t).view.set := by
  have hi0 : (i 0).val < 1024 := (i 0).isLt
  have hi1 : (i 1).val < 25000 := (i 1).isLt
  let t : Fin cfg0.N := ⟨(i 1).val / 1280, by rw [show cfg0.N = 20 from N_0]; omega⟩
  have ht : t.val = (i 1).val / 1280 := rfl
  obtain ⟨-, -, x2, x3⟩ := xsize_facts0 t
  obtain ⟨-, -, -, -, -, -, e6, e7⟩ := idx_facts0 t
  refine ⟨t, flush0_3 t, ?_⟩
  rw [mem_blk0]
  intro a
  match a with
  | ⟨0, _⟩ =>
    show win0_3.index t (0 : Fin 2) * 1024 ≤ (i 0).val ∧ (i 0).val < win0_3.index t (0 : Fin 2) * 1024 + win0_3.xsize (grid0.coords t) (0 : Fin 2)
    rw [e6, x2]; omega
  | ⟨1, _⟩ =>
    show win0_3.index t (1 : Fin 2) * 1280 ≤ (i 1).val ∧ (i 1).val < win0_3.index t (1 : Fin 2) * 1280 + win0_3.xsize (grid0.coords t) (1 : Fin 2)
    rw [e7, x3, ht]; omega

variable (V : (c : Dev nD) → (b : Ref sig .tc) → Buf (Elt Ideal) ((c : Thread nD τ).loc b))

def G0 (c : Dev nD) : Buf (Elt Ideal) ((c : Thread nD τ).loc main_v17) :=
  Cert.Spec.G_lin (V c main_v0) (V c main_arg3) (V c main_v10)

theorem flushed_eq0 (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  exact flushed_lin (V c main_v0) (V c main_arg3) (V c main_v10) t

theorem final0 (c : Dev nD) : (dat0 (F := Ideal) V c).arrAt 3 cfg0.N = G0 V c :=
  (dat0 (F := Ideal) V c).arrAt_eq_of_cover 3 (G0 V c) (fun t _ => flushed_eq0 V c t) cover0

end Cert.KernelIdeal.Hand

end
-- ==== Proof.KI.Final1.lean ====
import proofs.«420588_j52003464020428_2_alg».proof.Proof.KI.Body1Ideal
import proofs.«420588_j52003464020428_2_alg».proof.Proof.KI.Final0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

def G1 (c : Dev nD) : Buf (Elt Ideal) ((c : Thread nD τ).loc main_v19) :=
  Cert.Spec.G_lin (V c main_v0) (V c main_arg5) (V c main_v13)

/-- The four heads' windows have the same blocks and index maps, so region 0's lemmas serve every head. -/
theorem flushed_eq1 (c : Dev nD) (t : Fin cfg1.N) :
    (dat1 (F := Ideal) V c).flushed 3 t = ((cfg1.win 3).blk t).view.read (Elt Ideal) (G1 V c) := by
  show (cfg1.win 3).cut (grid1.coords t) ((dat1 V c).after 3 t) = _
  rw [after1_3]
  exact flushed_lin (V c main_v0) (V c main_arg5) (V c main_v13) t

theorem final1 (c : Dev nD) : (dat1 (F := Ideal) V c).arrAt 3 cfg1.N = G1 V c :=
  (dat1 (F := Ideal) V c).arrAt_eq_of_cover 3 (G1 V c) (fun t _ => flushed_eq1 V c t) cover0

end Cert.KernelIdeal.Hand

end
-- ==== Proof.KI.Final2.lean ====
import proofs.«420588_j52003464020428_2_alg».proof.Proof.KI.Body2Ideal
import proofs.«420588_j52003464020428_2_alg».proof.Proof.KI.Final0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

def G2 (c : Dev nD) : Buf (Elt Ideal) ((c : Thread nD τ).loc main_v21) :=
  Cert.Spec.G_lin (V c main_v0) (V c main_arg6) (V c main_v13)

/-- The four heads' windows have the same blocks and index maps, so region 0's lemmas serve every head. -/
theorem flushed_eq2 (c : Dev nD) (t : Fin cfg2.N) :
    (dat2 (F := Ideal) V c).flushed 3 t = ((cfg2.win 3).blk t).view.read (Elt Ideal) (G2 V c) := by
  show (cfg2.win 3).cut (grid2.coords t) ((dat2 V c).after 3 t) = _
  rw [after2_3]
  exact flushed_lin (V c main_v0) (V c main_arg6) (V c main_v13) t

theorem final2 (c : Dev nD) : (dat2 (F := Ideal) V c).arrAt 3 cfg2.N = G2 V c :=
  (dat2 (F := Ideal) V c).arrAt_eq_of_cover 3 (G2 V c) (fun t _ => flushed_eq2 V c t) cover0

end Cert.KernelIdeal.Hand

end
-- ==== Proof.KI.Final3.lean ====
import proofs.«420588_j52003464020428_2_alg».proof.Proof.KI.Body3Ideal
import proofs.«420588_j52003464020428_2_alg».proof.Proof.KI.Final0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (V : (c : Dev nD) → (b : Ref sig .tc) → Buf (Elt Ideal) ((c : Thread nD τ).loc b))

def G3 (c : Dev nD) : Buf (Elt Ideal) ((c : Thread nD τ).loc main_v23) :=
  Cert.Spec.G_lin (V c main_v0) (V c main_arg7) (V c main_v16)

/-- The four heads' windows have the same blocks and index maps, so region 0's lemmas serve every head. -/
theorem flushed_eq3 (c : Dev nD) (t : Fin cfg3.N) :
    (dat3 (F := Ideal) V c).flushed 3 t = ((cfg3.win 3).blk t).view.read (Elt Ideal) (G3 V c) := by
  show (cfg3.win 3).cut (grid3.coords t) ((dat3 V c).after 3 t) = _
  rw [after3_3]
  exact flushed_lin (V c main_v0) (V c main_arg7) (V c main_v16) t

theorem final3 (c : Dev nD) : (dat3 (F := Ideal) V c).arrAt 3 cfg3.N = G3 V c :=
  (dat3 (F := Ideal) V c).arrAt_eq_of_cover 3 (G3 V c) (fun t _ => flushed_eq3 V c t) cover0

end Cert.KernelIdeal.Hand

end
-- ==== Proof.KI.Final4.lean ====
import proofs.«420588_j52003464020428_2_alg».proof.Proof.KI.Body4
import proofs.«420588_j52003464020428_2_alg».proof.Proof.Spec
import Idealize.ShloMosaic.Lib.ValueIdx
import Idealize.ShloMosaic.PureOps.Ideal.Laws
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem lhs_k4_0 (i : S128x2500.Idx) (q : dot_S128x512_S2500x512_S128x2500_1_1_0_0_n_n.contr.Idx) :
    (dot_S128x512_S2500x512_S128x2500_1_1_0_0_n_n.lhsIdx i q 0).val = (i 0).val := by
  unfold DotDims.lhsIdx
  rw [dif_neg (show ¬(0 : Fin S128x512.rank) ∈ dot_S128x512_S2500x512_S128x2500_1_1_0_0_n_n.lhsBatch by decide), dif_pos (show (0 : Fin S128x512.rank) ∈ dot_S128x512_S2500x512_S128x2500_1_1_0_0_n_n.lhsNonContracting by decide)]
  rfl

theorem rhs_k4_0 (i : S128x2500.Idx) (q : dot_S128x512_S2500x512_S128x2500_1_1_0_0_n_n.contr.Idx) :
    (dot_S128x512_S2500x512_S128x2500_1_1_0_0_n_n.rhsIdx i q 0).val = (i 1).val := by
  unfold DotDims.rhsIdx
  rw [dif_neg (show ¬(0 : Fin S2500x512.rank) ∈ dot_S128x512_S2500x512_S128x2500_1_1_0_0_n_n.rhsBatch by decide), dif_pos (show (0 : Fin S2500x512.rank) ∈ dot_S128x512_S2500x512_S128x2500_1_1_0_0_n_n.rhsNonContracting by decide)]
  rfl

/-- Over the extended reals entry (s, v) of the block is row s against row v over the hidden axis. -/
theorem pay4_apply (x0 : Vec Ideal S1x128x512 .f32) (x1 : Vec Ideal S1x2500x512 .f32) (s : Fin 128) (v : Fin 2500) :
    k4_pay1 (F := Ideal) x0 x1 (ix3 (0 : Fin 1) s v)
      = ∑ k : Fin 512, x0 (ix3 (0 : Fin 1) s k) * x1 (ix3 (0 : Fin 1) v k) := by
  unfold k4_pay1
  simp only [matmul]
  rw [shapeCast_addUnit_apply ![128, 2500] _ _ (ix3 (0 : Fin 1) s v),
    show (fun a : Fin 2 => ix3 (0 : Fin 1) s v a.succ) = ix2 s v from eq_ix2 (n0 := 128) (n1 := 2500) _,
    Ideal.matmul_constant_zero_apply,
    ← Equiv.sum_comp (contrEquiv1 dot_S128x512_S2500x512_S128x2500_1_1_0_0_n_n 512 rfl rfl).symm]
  refine Finset.sum_congr rfl fun k _ => ?_
  have hk := contrEquiv1_symm_val dot_S128x512_S2500x512_S128x2500_1_1_0_0_n_n 512 rfl rfl k
  have el : dot_S128x512_S2500x512_S128x2500_1_1_0_0_n_n.lhsIdx (ix2 s v) ((contrEquiv1 dot_S128x512_S2500x512_S128x2500_1_1_0_0_n_n 512 rfl rfl).symm k) = ix2 s k := funext fun a => Fin.ext (by
    match a with
    | ⟨0, _⟩ => exact lhs_k4_0 _ _
    | ⟨1, _⟩ => exact (DotDims.lhsIdx_val_of_single _ rfl _ _).trans hk)
  have er : dot_S128x512_S2500x512_S128x2500_1_1_0_0_n_n.rhsIdx (ix2 s v) ((contrEquiv1 dot_S128x512_S2500x512_S128x2500_1_1_0_0_n_n 512 rfl rfl).symm k) = ix2 v k := funext fun a => Fin.ext (by
    match a with
    | ⟨0, _⟩ => exact rhs_k4_0 _ _
    | ⟨1, _⟩ => exact (DotDims.rhsIdx_val_of_single _ rfl _ _).trans hk)
  rw [truncf_apply, truncf_apply, el, er,
    shapeCast_dropUnit_apply ![128, 512] x0 _ (ix2 s k), shapeCast_dropUnit_apply ![2500, 512] x1 _ (ix2 v k)]
  have e0 : (Fin.cons ⟨0, Nat.one_pos⟩ (ix2 s k) : (⟨2 + 1, Matrix.vecCons 1 ![128, 512]⟩ : Shape).Idx) = ix3 (0 : Fin 1) s k := eq_ix3 (n0 := 1) (n1 := 128) (n2 := 512) _
  have e1 : (Fin.cons ⟨0, Nat.one_pos⟩ (ix2 v k) : (⟨2 + 1, Matrix.vecCons 1 ![2500, 512]⟩ : Shape).Idx) = ix3 (0 : Fin 1) v k := eq_ix3 (n0 := 1) (n1 := 2500) (n2 := 512) _
  rw [e0, e1]

variable (a : (pcfg4 (F := Ideal)).Adm)
variable (V : (c : Dev nD) → (b : Ref sig .tc) → Buf (Elt Ideal) ((c : Thread nD τ).loc b))

theorem idx_facts4 : ∀ t : Fin grid4.N, cc4_transform_0 (grid4.coords t) = ![t.val, 0, 0]
    ∧ cc4_transform_2 (grid4.coords t) = ![t.val, 0, 0] ∧ ((grid4.coords t) 0).val = t.val := by decide

theorem word_of_coord4 : ∀ n : Fin 8, (Scalar.indexCast (BitVec.ofNat 32 n.val) : Index).toNat = n.val := by decide

theorem t_lt4 (t : Fin (cfg4 a).N) : t.val < 8 := Nat.lt_of_lt_of_eq t.isLt (N_4 : (cfg4 a).N = 8)

/-- The weights window's leading block index at a grid point is the table's word there. -/
theorem tr1_eq4 (i : grid4.Coords) (n : Nat) (hn : n < 8)
    (hv : (Scalar.indexCast (BitVec.ofNat 32 (i 0).val) : Index).toNat = n) :
    cc4_transform_1 k4_off1_inb numel1_S1 a.1 i = ![((a.1 0 (ix1 (⟨n, hn⟩ : Fin 8)) : BitVec 32)).toNat, 0, 0] := by
  unfold cc4_transform_1
  funext j
  match j with
  | ⟨0, _⟩ =>
    show (_ : BitVec 32).toNat = (_ : BitVec 32).toNat
    refine congrArg BitVec.toNat ?_
    show a.1 0 _ = a.1 0 _
    refine congrArg (a.1 0) ?_
    funext d
    apply Fin.ext
    match d with
    | ⟨0, _⟩ =>
      show (Scalar.indexCast (BitVec.ofNat 32 (i 0).val) : Index).toNat + 1 * 0 = n
      omega
  | ⟨1, _⟩ => rfl
  | ⟨2, _⟩ => rfl

theorem idx0_4 (t : Fin (cfg4 a).N) : ((cfg4 a).win (0 : Fin 3)).index t = ![t.val, 0, 0] := (idx_facts4 t).1
theorem idx2_4 (t : Fin (cfg4 a).N) : ((cfg4 a).win (2 : Fin 3)).index t = ![t.val, 0, 0] := (idx_facts4 t).2.1
theorem idx1_4 (t : Fin (cfg4 a).N) :
    ((cfg4 a).win (1 : Fin 3)).index t = ![((a.1 0 (ix1 (⟨t.val, t_lt4 a t⟩ : Fin 8)) : BitVec 32)).toNat, 0, 0] :=
  tr1_eq4 a (grid4.coords t) t.val (t_lt4 a t) ((word_of_coord4 _).trans (idx_facts4 t).2.2)

def G4 (c : Dev nD) (hl : ∀ b : Fin 8, ((a.1 0 (ix1 b) : BitVec 32)).toNat < 6) :
    Buf (Elt Ideal) ((c : Thread nD τ).loc main_v25) :=
  Cert.Spec.G_lang (V c main_arg0) (V c main_arg4) (fun b => ⟨((a.1 0 (ix1 b) : BitVec 32)).toNat, hl b⟩)

theorem flush4_2 (t : Fin (cfg4 a).N) : ((cfg4 a).win (2 : Fin 3)).flush t = true := by
  unfold Window.flush
  rw [show ((cfg4 a).win (2 : Fin 3)).isOut = true from rfl, Bool.true_and, Bool.or_eq_true, decide_eq_true_eq, decide_eq_true_eq]
  by_cases h : t.val + 1 = (cfg4 a).grid.N
  · exact Or.inl h
  · have hN : (cfg4 a).grid.N = 8 := N_4
    have ht := t_lt4 a t
    refine Or.inr ⟨by omega, fun e => ?_⟩
    have e0 := congrFun e 0
    rw [idx2_4, idx2_4] at e0
    have : t.val + 1 = t.val := e0
    omega

theorem mem_blk4 (t : Fin (cfg4 a).N) (i : S8x128x2500.Idx) :
    i ∈ (((cfg4 a).win (2 : Fin 3)).blk t).view.set ↔ ∀ a' : Fin 3, ((cfg4 a).win (2 : Fin 3)).index t a' * S1x128x2500.size a' ≤ (i a').val ∧ (i a').val < ((cfg4 a).win (2 : Fin 3)).index t a' * S1x128x2500.size a' + S1x128x2500.size a' := by
  show i ∈ ((View.whole main_v25).slice (((cfg4 a).win (2 : Fin 3)).rect t)).set ↔ _
  rw [View.set_slice_whole, Rect.mem_set_unit]
  exact Iff.rfl

/-- A block whose index is `![n, 0, 0]` and whose leading size is 1 sits at `n` on the leading axis and at the offset on the others. -/
theorem emb_arith {I : Fin 3 → ℕ} {n : ℕ} (A B x y : ℕ) (h : I = ![n, 0, 0]) :
    I 0 * 1 + 1 * 0 = n ∧ I 1 * A + 1 * x = x ∧ I 2 * B + 1 * y = y := by
  subst h
  exact ⟨by show n * 1 + 1 * 0 = n; omega, by show 0 * A + 1 * x = x; omega, by show 0 * B + 1 * y = y; omega⟩

theorem emb2_4 (t : Fin (cfg4 a).N) (s : Fin 128) (v : Fin 2500) :
    (((cfg4 a).win (2 : Fin 3)).blk t).view.emb (ix3 (0 : Fin 1) s v) = ix3 (⟨t.val, t_lt4 a t⟩ : Fin 8) s v := by
  funext a'; apply Fin.ext
  have h := emb_arith 128 2500 s.val v.val (idx2_4 a t)
  match a' with
  | ⟨0, _⟩ => exact h.1
  | ⟨1, _⟩ => exact h.2.1
  | ⟨2, _⟩ => exact h.2.2

theorem emb0_4 (t : Fin (cfg4 a).N) (s : Fin 128) (k : Fin 512) :
    (((cfg4 a).win (0 : Fin 3)).blk t).view.emb (ix3 (0 : Fin 1) s k) = ix3 (⟨t.val, t_lt4 a t⟩ : Fin 8) s k := by
  funext a'; apply Fin.ext
  have h := emb_arith 128 512 s.val k.val (idx0_4 a t)
  match a' with
  | ⟨0, _⟩ => exact h.1
  | ⟨1, _⟩ => exact h.2.1
  | ⟨2, _⟩ => exact h.2.2

theorem emb1_4 (hl : ∀ b : Fin 8, ((a.1 0 (ix1 b) : BitVec 32)).toNat < 6) (t : Fin (cfg4 a).N) (v : Fin 2500) (k : Fin 512) :
    (((cfg4 a).win (1 : Fin 3)).blk t).view.emb (ix3 (0 : Fin 1) v k)
      = ix3 (⟨((a.1 0 (ix1 (⟨t.val, t_lt4 a t⟩ : Fin 8)) : BitVec 32)).toNat, hl _⟩ : Fin 6) v k := by
  funext a'; apply Fin.ext
  have h := emb_arith 2500 512 v.val k.val (idx1_4 a t)
  match a' with
  | ⟨0, _⟩ => exact h.1
  | ⟨1, _⟩ => exact h.2.1
  | ⟨2, _⟩ => exact h.2.2

theorem pay_blk4 (c : Dev nD) (hl : ∀ b : Fin 8, ((a.1 0 (ix1 b) : BitVec 32)).toNat < 6) (t : Fin (cfg4 a).N) (s : Fin 128) (v : Fin 2500) :
    k4_pay1 (F := Ideal) (iblk4 a V c (0 : Fin 3) t) (iblk4 a V c (1 : Fin 3) t) (ix3 (0 : Fin 1) s v)
      = G4 a V c hl ((((cfg4 a).win (2 : Fin 3)).blk t).view.emb (ix3 (0 : Fin 1) s v)) := by
  rw [emb2_4]
  unfold G4
  rw [Cert.Spec.G_lang_apply, pay4_apply]
  refine Finset.sum_congr rfl fun k _ => ?_
  unfold iblk4
  rw [View.read_apply, View.read_apply, emb0_4, emb1_4 a hl]
  rfl

/-- What grid point t writes back is the specification read through block t. -/
theorem flushed4_eq (c : Dev nD) (hl : ∀ b : Fin 8, ((a.1 0 (ix1 b) : BitVec 32)).toNat < 6) (t : Fin (cfg4 a).N) :
    (dat4 (F := Ideal) a V c).flushed (2 : Fin 3) t = (((cfg4 a).win (2 : Fin 3)).blk t).view.read (Elt Ideal) (G4 a V c hl) := by
  show ((cfg4 a).win (2 : Fin 3)).cut ((cfg4 a).grid.coords t) ((dat4 (F := Ideal) a V c).after (2 : Fin 3) t) = _
  rw [after4_2, out4_2_eq]
  refine funext fun (j : S1x128x2500.Idx) => ?_
  have hj0 : j 0 = (0 : Fin 1) := Fin.ext (show (j 0).val = 0 from Nat.lt_one_iff.mp (j 0).isLt)
  have hj : j = ix3 (0 : Fin 1) (j 1 : Fin 128) (j 2 : Fin 2500) :=
    (eq_ix3 (n0 := 1) (n1 := 128) (n2 := 2500) j).trans (congrArg (fun z : Fin 1 => ix3 z (j 1 : Fin 128) (j 2 : Fin 2500)) hj0)
  show k4_pay1 (F := Ideal) (iblk4 a V c (0 : Fin 3) t) (iblk4 a V c (1 : Fin 3) t) j = G4 a V c hl ((((cfg4 a).win (2 : Fin 3)).blk t).view.emb j)
  rw [hj]
  exact pay_blk4 a V c hl t (j 1) (j 2)

/-- Sample b's block is the block of grid point b. -/
theorem cover4 (i : S8x128x2500.Idx) :
    ∃ t : Fin (cfg4 a).N, ((cfg4 a).win (2 : Fin 3)).flush t = true ∧ i ∈ (((cfg4 a).win (2 : Fin 3)).blk t).view.set := by
  have h0 : (i 0).val < 8 := (i 0).isLt
  have h1 : (i 1).val < 128 := (i 1).isLt
  have h2 : (i 2).val < 2500 := (i 2).isLt
  refine ⟨⟨(i 0).val, Nat.lt_of_lt_of_eq h0 (N_4 : (cfg4 a).N = 8).symm⟩, flush4_2 a _, ?_⟩
  rw [mem_blk4]
  intro a'
  rw [idx2_4]
  match a' with
  | ⟨0, _⟩ => show (i 0).val * 1 ≤ (i 0).val ∧ (i 0).val < (i 0).val * 1 + 1; omega
  | ⟨1, _⟩ => show 0 * 128 ≤ (i 1).val ∧ (i 1).val < 0 * 128 + 128; omega
  | ⟨2, _⟩ => show 0 * 2500 ≤ (i 2).val ∧ (i 2).val < 0 * 2500 + 2500; omega

theorem final4 (c : Dev nD) (hl : ∀ b : Fin 8, ((a.1 0 (ix1 b) : BitVec 32)).toNat < 6) :
    (dat4 (F := Ideal) a V c).arrAt (2 : Fin 3) (cfg4 a).N
      = Cert.Spec.G_lang (V c main_arg0) (V c main_arg4) (fun b => ⟨((a.1 0 (ix1 b) : BitVec 32)).toNat, hl b⟩) :=
  (dat4 (F := Ideal) a V c).arrAt_eq_of_cover (2 : Fin 3) (G4 a V c hl) (fun t _ => flushed4_eq a V c hl t) (cover4 a)

end Cert.KernelIdeal.Hand

end
-- ==== Proof.KI.Values.lean ====
import proofs.«420588_j52003464020428_2_alg».proof.Proof.KI.Outs
import proofs.«420588_j52003464020428_2_alg».proof.Proof.KI.Tail
import proofs.«420588_j52003464020428_2_alg».proof.Proof.KI.TailIn
import proofs.«420588_j52003464020428_2_alg».proof.Proof.KI.Final0
import proofs.«420588_j52003464020428_2_alg».proof.Proof.KI.Final1
import proofs.«420588_j52003464020428_2_alg».proof.Proof.KI.Final2
import proofs.«420588_j52003464020428_2_alg».proof.Proof.KI.Final3
import proofs.«420588_j52003464020428_2_alg».proof.Proof.KI.Final4

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem
open Idealize.ShloMosaic.Pipeline (Dat)

variable (m : (ℓ : Loc nD τ sig) → Buf (Elt Ideal) ℓ) (hok : ok4 (F := Ideal) (tbl m)) (c : Dev nD)

abbrev fold0 (x : (⟨S8x128x512, .f32⟩ : BufTy).Contents (Elt Ideal)) : (⟨S1024x512, .f32⟩ : BufTy).Contents (Elt Ideal) :=
  shapeCast S1024x512 x shapeCasts_S8x128x512_S1024x512

abbrev ones8 : (⟨S8, .f32⟩ : BufTy).Contents (Elt Ideal) :=
  broadcastInDim S8 ![] bcast_S_S8 (constant (F := Ideal) S_ .f32 0x3F800000#32)

abbrev linHead (x : (⟨S8x128x512, .f32⟩ : BufTy).Contents (Elt Ideal)) (W : (⟨S25000x512, .f32⟩ : BufTy).Contents (Elt Ideal))
    (msk : (⟨S1024x1, .f32⟩ : BufTy).Contents (Elt Ideal)) : (⟨S8x128x25000, .f32⟩ : BufTy).Contents (Elt Ideal) :=
  unfold3 (Cert.Spec.G_lin (fold0 x) W msk)

/-- Region 0 leaves the folded shared head of the launch arrays (mask all ones). -/
theorem outs_main_v17 : (outsOf m hok 2 main_v17 c : (⟨S1024x25000, .f32⟩ : BufTy).Contents (Elt Ideal))
    = Cert.Spec.G_lin (fold0 (m ((c : Thread nD τ).loc main_arg0))) (m ((c : Thread nD τ).loc main_arg3)) (rowsOf ones8) := by
  refine (outsOf_0 m hok c).trans ((final0 (VE m) c).trans ?_)
  unfold G0 VE
  rw [V1_main_v0, V1_main_v10, V1_of m c main_arg3 (by decide)]

theorem outs_main_v19 : (outsOf m hok 4 main_v19 c : (⟨S1024x25000, .f32⟩ : BufTy).Contents (Elt Ideal))
    = Cert.Spec.G_lin (fold0 (m ((c : Thread nD τ).loc main_arg0))) (m ((c : Thread nD τ).loc main_arg5))
        (rowsOf (taskIs (F := Ideal) (m ((c : Thread nD τ).loc main_arg2)) 1#32)) := by
  refine (outsOf_1 m hok c).trans ((final1 (VE m) c).trans ?_)
  unfold G1 VE
  rw [V1_main_v0, V1_main_v13, V1_of m c main_arg5 (by decide)]

theorem outs_main_v21 : (outsOf m hok 6 main_v21 c : (⟨S1024x25000, .f32⟩ : BufTy).Contents (Elt Ideal))
    = Cert.Spec.G_lin (fold0 (m ((c : Thread nD τ).loc main_arg0))) (m ((c : Thread nD τ).loc main_arg6))
        (rowsOf (taskIs (F := Ideal) (m ((c : Thread nD τ).loc main_arg2)) 1#32)) := by
  refine (outsOf_2 m hok c).trans ((final2 (VE m) c).trans ?_)
  unfold G2 VE
  rw [V1_main_v0, V1_main_v13, V1_of m c main_arg6 (by decide)]

theorem outs_main_v23 : (outsOf m hok 8 main_v23 c : (⟨S1024x25000, .f32⟩ : BufTy).Contents (Elt Ideal))
    = Cert.Spec.G_lin (fold0 (m ((c : Thread nD τ).loc main_arg0))) (m ((c : Thread nD τ).loc main_arg7))
        (rowsOf (taskIs (F := Ideal) (m ((c : Thread nD τ).loc main_arg2)) 2#32)) := by
  refine (outsOf_3 m hok c).trans ((final3 (VE m) c).trans ?_)
  unfold G3 VE
  rw [V1_main_v0, V1_main_v16, V1_of m c main_arg7 (by decide)]

/-- Region 4 leaves the language head of the launch arrays. -/
theorem outs_main_v25 (hl : ∀ b : Fin 8, (m ((c : Thread nD τ).loc main_arg1) (ix1 b)).toNat < 6) :
    (outsOf m hok 10 main_v25 c : (⟨S8x128x2500, .f32⟩ : BufTy).Contents (Elt Ideal))
      = Cert.Spec.G_lang (m ((c : Thread nD τ).loc main_arg0)) (m ((c : Thread nD τ).loc main_arg4))
          (fun b => ⟨(m ((c : Thread nD τ).loc main_arg1) (ix1 b)).toNat, hl b⟩) := by
  obtain rfl : c = 0 := Subsingleton.elim _ _
  refine (outsOf_4 m hok 0).trans ((final4 (adm m hok 4) (VE m) 0 hl).trans ?_)
  rw [show VE m 0 main_arg0 = m (((0 : Dev nD) : Thread nD τ).loc main_arg0) from V1_of m 0 main_arg0 (by decide),
    show VE m 0 main_arg4 = m (((0 : Dev nD) : Thread nD τ).loc main_arg4) from V1_of m 0 main_arg4 (by decide)]
  rfl

theorem value_v18 : (V11 m (outsOf m hok) c main_v18 : (⟨S8x128x25000, .f32⟩ : BufTy).Contents (Elt Ideal))
    = linHead (m ((c : Thread nD τ).loc main_arg0)) (m ((c : Thread nD τ).loc main_arg3)) (rowsOf ones8) := by
  rw [V11_main_v18, outs_main_v17]

theorem value_v20 : (V11 m (outsOf m hok) c main_v20 : (⟨S8x128x25000, .f32⟩ : BufTy).Contents (Elt Ideal))
    = linHead (m ((c : Thread nD τ).loc main_arg0)) (m ((c : Thread nD τ).loc main_arg5))
        (rowsOf (taskIs (F := Ideal) (m ((c : Thread nD τ).loc main_arg2)) 1#32)) := by
  rw [V11_main_v20, outs_main_v19]

theorem value_v22 : (V11 m (outsOf m hok) c main_v22 : (⟨S8x128x25000, .f32⟩ : BufTy).Contents (Elt Ideal))
    = linHead (m ((c : Thread nD τ).loc main_arg0)) (m ((c : Thread nD τ).loc main_arg6))
        (rowsOf (taskIs (F := Ideal) (m ((c : Thread nD τ).loc main_arg2)) 1#32)) := by
  rw [V11_main_v22, outs_main_v21]

theorem value_v24 : (V11 m (outsOf m hok) c main_v24 : (⟨S8x128x25000, .f32⟩ : BufTy).Contents (Elt Ideal))
    = linHead (m ((c : Thread nD τ).loc main_arg0)) (m ((c : Thread nD τ).loc main_arg7))
        (rowsOf (taskIs (F := Ideal) (m ((c : Thread nD τ).loc main_arg2)) 2#32)) := by
  rw [V11_main_v24, outs_main_v23]

theorem value_v25 (hl : ∀ b : Fin 8, (m ((c : Thread nD τ).loc main_arg1) (ix1 b)).toNat < 6) :
    (V11 m (outsOf m hok) c main_v25 : (⟨S8x128x2500, .f32⟩ : BufTy).Contents (Elt Ideal))
      = Cert.Spec.G_lang (m ((c : Thread nD τ).loc main_arg0)) (m ((c : Thread nD τ).loc main_arg4))
          (fun b => ⟨(m ((c : Thread nD τ).loc main_arg1) (ix1 b)).toNat, hl b⟩) := by
  rw [V11_main_v25, outs_main_v25 m hok c hl]

theorem value_v26 (hl : ∀ b : Fin 8, (m ((c : Thread nD τ).loc main_arg1) (ix1 b)).toNat < 6) :
    (V11 m (outsOf m hok) c main_v26 : (⟨S8x128x27500, .f32⟩ : BufTy).Contents (Elt Ideal))
      = concatenate S8x128x27500 2
          [⟨S8x128x25000, linHead (m ((c : Thread nD τ).loc main_arg0)) (m ((c : Thread nD τ).loc main_arg3)) (rowsOf ones8)⟩,
           ⟨S8x128x2500, Cert.Spec.G_lang (m ((c : Thread nD τ).loc main_arg0)) (m ((c : Thread nD τ).loc main_arg4))
              (fun b => ⟨(m ((c : Thread nD τ).loc main_arg1) (ix1 b)).toNat, hl b⟩)⟩]
          concatenates_S8x128x25000_S8x128x2500_S8x128x27500_d2 := by
  rw [V11_main_v26, outs_main_v17, outs_main_v25 m hok c hl]

theorem value_v34 : (V11 m (outsOf m hok) c main_v34 : (⟨S8x5, .f32⟩ : BufTy).Contents (Elt Ideal))
    = taskRouting (m ((c : Thread nD τ).loc main_arg0)) (m ((c : Thread nD τ).loc main_arg8)) (m ((c : Thread nD τ).loc main_arg9)) :=
  V11_main_v34 m (outsOf m hok) c

end Cert.KernelIdeal.Hand

end
-- ==== Proof.RefRun.lean ====
import proofs.«420588_j52003464020428_2_alg».proof.Defs
import proofs.«420588_j52003464020428_2_alg».proof.Proof.Gen.ReferenceIdeal.Run
import proofs.«420588_j52003464020428_2_alg».proof.Proof.Gen.ReferenceIdeal.Read
-- ==== Proof.RefValue.lean ====
import proofs.«420588_j52003464020428_2_alg».proof.Proof.RefRun
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.StableHlo

/-- A linear head on (b, s): the hidden vector against weight row v. -/
def lin (x : S8x128x512.Idx → EReal) (W : S25000x512.Idx → EReal) : S8x128x25000.Idx → EReal :=
  fun i => ∑ k : Fin 512, x (ix3 (i 0 : Fin 8) (i 1 : Fin 128) k) * W (ix2 (i 2 : Fin 25000) k)

/-- 1 where sample b's task id is `c`, else 0. -/
def taskMask (t : S8.Idx → BitVec 32) (c : BitVec 32) (b : Fin 8) : EReal :=
  FloatOps.uitofp (F := Ideal) .f32 (IntOp.cmpi .eq (t (ix1 b)) c)

/-- A linear head with sample b's rows scaled by b's mask. -/
def maskedLin (x : S8x128x512.Idx → EReal) (W : S25000x512.Idx → EReal) (mb : Fin 8 → EReal) : S8x128x25000.Idx → EReal :=
  fun i => lin x W i * mb (i 0 : Fin 8)

theorem maskedLin_apply (x : S8x128x512.Idx → EReal) (W : S25000x512.Idx → EReal) (mb : Fin 8 → EReal)
    (b : Fin 8) (s : Fin 128) (v : Fin 25000) :
    maskedLin x W mb (ix3 b s v) = (∑ k : Fin 512, x (ix3 b s k) * W (ix2 v k)) * mb b := rfl

/-- The language head through the slab that sample b's id selects. -/
def lang (x : S8x128x512.Idx → EReal) (W : S6x2500x512.Idx → EReal) (ids : Fin 8 → Fin 6) : S8x128x2500.Idx → EReal :=
  fun i => ∑ k : Fin 512, x (ix3 (i 0 : Fin 8) (i 1 : Fin 128) k) * W (ix3 (ids (i 0 : Fin 8)) (i 2 : Fin 2500) k)

theorem lang_apply (x : S8x128x512.Idx → EReal) (W : S6x2500x512.Idx → EReal) (ids : Fin 8 → Fin 6)
    (b : Fin 8) (s : Fin 128) (v : Fin 2500) :
    lang x W ids (ix3 b s v) = ∑ k : Fin 512, x (ix3 b s k) * W (ix3 (ids b) v k) := rfl

def routing (x0 : S8x128x512.Idx → EReal) (x8 : S5x512.Idx → EReal) (x9 : S5.Idx → EReal) : S8x5.Idx → EReal :=
  val_main_v34 (F := Ideal) x0 x8 x9

theorem lidx_eq (i : S8x128x25000.Idx) (k : Fin 512) : lidx_main_v0 i k = ix3 (i 0 : Fin 8) (i 1 : Fin 128) k :=
  funext fun a => Fin.ext (by match a with | ⟨0, _⟩ => rfl | ⟨1, _⟩ => rfl | ⟨2, _⟩ => rfl)
theorem ridx_eq (i : S8x128x25000.Idx) (k : Fin 512) : ridx_main_v0 i k = ix2 (i 2 : Fin 25000) k :=
  funext fun a => Fin.ext (by match a with | ⟨0, _⟩ => rfl | ⟨1, _⟩ => rfl)

theorem shared_eq (x0 : S8x128x512.Idx → EReal) (x3 : S25000x512.Idx → EReal) :
    val_main_v0 (F := Ideal) x0 x3 = lin x0 x3 := by
  funext i
  rw [val_main_v0_apply]
  simp only [lidx_eq, ridx_eq]
  rfl

theorem mask1_at (x2 : S8.Idx → BitVec 32) (i : S8x128x25000.Idx) :
    val_main_v13 (F := Ideal) x2 (idx_main_v19 i) = taskMask x2 1#32 (i 0 : Fin 8) := by
  rw [val_main_v13_apply, val_main_v12_apply, val_main_v11_apply, val_main_v10_apply, val_main_c_1_apply]
  have e : idx_main_v13 (idx_main_v19 i) = ix1 (i 0 : Fin 8) := funext fun a => Fin.ext (by match a with | ⟨0, _⟩ => rfl)
  rw [e]
  rfl

theorem mask2_at (x2 : S8.Idx → BitVec 32) (i : S8x128x25000.Idx) :
    val_main_v17 (F := Ideal) x2 (idx_main_v25 i) = taskMask x2 2#32 (i 0 : Fin 8) := by
  rw [val_main_v17_apply, val_main_v16_apply, val_main_v15_apply, val_main_v14_apply, val_main_c_2_apply]
  have e : idx_main_v17 (idx_main_v25 i) = ix1 (i 0 : Fin 8) := funext fun a => Fin.ext (by match a with | ⟨0, _⟩ => rfl)
  rw [e]
  rfl

theorem diff_search_eq (x0 : S8x128x512.Idx → EReal) (x2 : S8.Idx → BitVec 32) (x5 : S25000x512.Idx → EReal) :
    val_main_v20 (F := Ideal) x0 x2 x5 = maskedLin x0 x5 (taskMask x2 1#32) := by
  funext i
  rw [val_main_v20_apply, val_main_v18_apply, val_main_v19_apply, mask1_at]
  exact congrArg (· * _) ((val_main_v0_apply x0 x5 i).symm.trans (congrFun (shared_eq x0 x5) i))

theorem diff_replace_eq (x0 : S8x128x512.Idx → EReal) (x2 : S8.Idx → BitVec 32) (x6 : S25000x512.Idx → EReal) :
    val_main_v23 (F := Ideal) x0 x2 x6 = maskedLin x0 x6 (taskMask x2 1#32) := by
  funext i
  rw [val_main_v23_apply, val_main_v21_apply, val_main_v22_apply, show idx_main_v22 i = idx_main_v19 i from rfl, mask1_at]
  exact congrArg (· * _) ((val_main_v0_apply x0 x6 i).symm.trans (congrFun (shared_eq x0 x6) i))

theorem tool_commands_eq (x0 : S8x128x512.Idx → EReal) (x2 : S8.Idx → BitVec 32) (x7 : S25000x512.Idx → EReal) :
    val_main_v26 (F := Ideal) x0 x2 x7 = maskedLin x0 x7 (taskMask x2 2#32) := by
  funext i
  rw [val_main_v26_apply, val_main_v24_apply, val_main_v25_apply, mask2_at]
  exact congrArg (· * _) ((val_main_v0_apply x0 x7 i).symm.trans (congrFun (shared_eq x0 x7) i))

theorem gather_axis0 (b : Fin 8) (v : Fin 2500) (k : Fin 512) (idx : IVec S8x1 32) :
    (gather_S6x2500x512_S8x1_S8x2500x512_12_0_n_n_0_1_12500512.operandIdx (ix3 b v k) idx 0).val
      = min (idx (ix2 b (0 : Fin 1))).toInt.toNat 5 := by
  show gather_S6x2500x512_S8x1_S8x2500x512_12_0_n_n_0_1_12500512.start (ix3 b v k) idx 0
      + gather_S6x2500x512_S8x1_S8x2500x512_12_0_n_n_0_1_12500512.batchCoord (ix3 b v k) 0
      + gather_S6x2500x512_S8x1_S8x2500x512_12_0_n_n_0_1_12500512.offCoord (ix3 b v k) 0 = _
  rw [GatherDims.batchCoord_eq_zero _ _ _ (by decide), GatherDims.offCoord_eq_zero _ _ _ (by decide)]
  unfold GatherDims.start
  rw [dif_pos (show (0 : Fin S6x2500x512.rank) ∈ gather_S6x2500x512_S8x1_S8x2500x512_12_0_n_n_0_1_12500512.startIndexMap by decide)]
  have hsi : gather_S6x2500x512_S8x1_S8x2500x512_12_0_n_n_0_1_12500512.siIdx (ix3 b v k)
      ⟨List.idxOf (0 : Fin S6x2500x512.rank) gather_S6x2500x512_S8x1_S8x2500x512_12_0_n_n_0_1_12500512.startIndexMap,
        List.idxOf_lt_length_iff.2 (by decide)⟩ = ix2 b (0 : Fin 1) := by
    funext a; refine Fin.ext ?_
    match a with
    | ⟨0, _⟩ => rfl
    | ⟨1, _⟩ => rfl
  rw [hsi]
  rfl

theorem gather_axis1 (b : Fin 8) (v : Fin 2500) (k : Fin 512) (idx : IVec S8x1 32) :
    (gather_S6x2500x512_S8x1_S8x2500x512_12_0_n_n_0_1_12500512.operandIdx (ix3 b v k) idx 1).val = v.val := by
  show gather_S6x2500x512_S8x1_S8x2500x512_12_0_n_n_0_1_12500512.start (ix3 b v k) idx 1
      + gather_S6x2500x512_S8x1_S8x2500x512_12_0_n_n_0_1_12500512.batchCoord (ix3 b v k) 1
      + gather_S6x2500x512_S8x1_S8x2500x512_12_0_n_n_0_1_12500512.offCoord (ix3 b v k) 1 = _
  rw [GatherDims.batchCoord_eq_zero _ _ _ (by decide)]
  unfold GatherDims.start GatherDims.offCoord
  rw [dif_neg (show ¬(1 : Fin S6x2500x512.rank) ∈ gather_S6x2500x512_S8x1_S8x2500x512_12_0_n_n_0_1_12500512.startIndexMap by decide),
    dif_pos (show (1 : Fin S6x2500x512.rank) ∈ gather_S6x2500x512_S8x1_S8x2500x512_12_0_n_n_0_1_12500512.sKept by decide)]
  have key : ∀ h, gather_S6x2500x512_S8x1_S8x2500x512_12_0_n_n_0_1_12500512.offsetDims[List.idxOf (1 : Fin S6x2500x512.rank)
      gather_S6x2500x512_S8x1_S8x2500x512_12_0_n_n_0_1_12500512.sKept]'h = (1 : Fin S8x2500x512.rank) := by decide
  rw [key, Nat.zero_add]

theorem gather_axis2 (b : Fin 8) (v : Fin 2500) (k : Fin 512) (idx : IVec S8x1 32) :
    (gather_S6x2500x512_S8x1_S8x2500x512_12_0_n_n_0_1_12500512.operandIdx (ix3 b v k) idx 2).val = k.val := by
  show gather_S6x2500x512_S8x1_S8x2500x512_12_0_n_n_0_1_12500512.start (ix3 b v k) idx 2
      + gather_S6x2500x512_S8x1_S8x2500x512_12_0_n_n_0_1_12500512.batchCoord (ix3 b v k) 2
      + gather_S6x2500x512_S8x1_S8x2500x512_12_0_n_n_0_1_12500512.offCoord (ix3 b v k) 2 = _
  rw [GatherDims.batchCoord_eq_zero _ _ _ (by decide)]
  unfold GatherDims.start GatherDims.offCoord
  rw [dif_neg (show ¬(2 : Fin S6x2500x512.rank) ∈ gather_S6x2500x512_S8x1_S8x2500x512_12_0_n_n_0_1_12500512.startIndexMap by decide),
    dif_pos (show (2 : Fin S6x2500x512.rank) ∈ gather_S6x2500x512_S8x1_S8x2500x512_12_0_n_n_0_1_12500512.sKept by decide)]
  have key : ∀ h, gather_S6x2500x512_S8x1_S8x2500x512_12_0_n_n_0_1_12500512.offsetDims[List.idxOf (2 : Fin S6x2500x512.rank)
      gather_S6x2500x512_S8x1_S8x2500x512_12_0_n_n_0_1_12500512.sKept]'h = (2 : Fin S8x2500x512.rank) := by decide
  rw [key, Nat.zero_add]

/-- The gathered slabs at (b, v, k): the weights at the b-th start index, clamped into the six slabs. -/
theorem gather_apply (W : S6x2500x512.Idx → EReal) (idx : IVec S8x1 32) (b : Fin 8) (v : Fin 2500) (k : Fin 512) :
    Host.gather gather_S6x2500x512_S8x1_S8x2500x512_12_0_n_n_0_1_12500512 W idx (ix3 b v k)
      = W (ix3 (⟨min (idx (ix2 b (0 : Fin 1))).toInt.toNat 5, by omega⟩ : Fin 6) v k) := by
  unfold Host.gather
  refine congrArg W (funext fun a => Fin.ext ?_)
  match a with
  | ⟨0, _⟩ => exact gather_axis0 b v k idx
  | ⟨1, _⟩ => exact gather_axis1 b v k idx
  | ⟨2, _⟩ => exact gather_axis2 b v k idx

/-- An id below six is not negative, so the wrap-around select keeps it. -/
theorem ids_normalised (x1 : S8.Idx → BitVec 32) (b : Fin 8) (h : (x1 (ix1 b)).toNat < 6) :
    val_main_v5 (F := Ideal) x1 (ix1 b) = x1 (ix1 b) := by
  rw [val_main_v5_apply, val_main_v2_apply, val_main_v1_apply, val_main_c_apply]
  have hx : (x1 (ix1 b)).toInt = ((x1 (ix1 b)).toNat : Int) := by
    rw [BitVec.toInt_eq_toNat_cond]; split <;> omega
  have hc : IntOp.cmpi .slt (x1 (ix1 b)) 0#32 = 0#1 := by
    unfold IntOp.cmpi
    show BitVec.ofBool ((x1 (ix1 b)).slt 0#32) = 0#1
    have : (x1 (ix1 b)).slt 0#32 = false := by
      rw [BitVec.slt_eq_decide, hx]; simp
    rw [this]; rfl
  rw [hc, select_zero]

theorem toInt_toNat_of_lt (x : BitVec 32) (h : x.toNat < 6) : min x.toInt.toNat 5 = x.toNat := by
  have hx : x.toInt = (x.toNat : Int) := by
    rw [BitVec.toInt_eq_toNat_cond]; split <;> omega
  rw [hx, Int.toNat_natCast]; omega

theorem lang_eq (x0 : S8x128x512.Idx → EReal) (x1 : S8.Idx → BitVec 32) (x4 : S6x2500x512.Idx → EReal)
    (hids : ∀ b : Fin 8, (x1 (ix1 b)).toNat < 6) :
    val_main_v8 (F := Ideal) x0 x1 x4 = lang x0 x4 (fun b => ⟨(x1 (ix1 b)).toNat, hids b⟩) := by
  funext i
  obtain ⟨b, s, v, rfl⟩ : ∃ (b : Fin 8) (s : Fin 128) (v : Fin 2500), i = ix3 b s v := ⟨i 0, i 1, i 2, eq_ix3 i⟩
  rw [val_main_v8_apply, lang_apply]
  refine Finset.sum_congr rfl fun k _ => ?_
  have e1 : lidx_main_v8 (ix3 b s v) k = ix3 b s k :=
    funext fun a => Fin.ext (by match a with | ⟨0, _⟩ => rfl | ⟨1, _⟩ => rfl | ⟨2, _⟩ => rfl)
  have e2 : ridx_main_v8 (ix3 b s v) k = ix3 b v k :=
    funext fun a => Fin.ext (by match a with | ⟨0, _⟩ => rfl | ⟨1, _⟩ => rfl | ⟨2, _⟩ => rfl)
  have e3 : idx_main_v6 (ix2 b (0 : Fin 1)) = ix1 b :=
    funext fun a => Fin.ext (by match a with | ⟨0, _⟩ => rfl)
  rw [e1, e2]
  unfold val_main_v7
  rw [gather_apply]
  refine congrArg (x0 (ix3 b s k) * ·) (congrArg x4 ?_)
  refine funext fun a => Fin.ext ?_
  match a with
  | ⟨0, _⟩ =>
    show min (val_main_v6 (F := Ideal) x1 (ix2 b (0 : Fin 1))).toInt.toNat 5 = (x1 (ix1 b)).toNat
    rw [val_main_v6_apply, e3, ids_normalised x1 b (hids b), toInt_toNat_of_lt _ (hids b)]
  | ⟨1, _⟩ => rfl
  | ⟨2, _⟩ => rfl

theorem generation_eq (x0 : S8x128x512.Idx → EReal) (x1 : S8.Idx → BitVec 32) (x3 : S25000x512.Idx → EReal)
    (x4 : S6x2500x512.Idx → EReal) (hids : ∀ b : Fin 8, (x1 (ix1 b)).toNat < 6) :
    val_main_v9 (F := Ideal) x0 x1 x3 x4
      = concatenate S8x128x27500 2 [⟨S8x128x25000, lin x0 x3⟩, ⟨S8x128x2500, lang x0 x4 (fun b => ⟨(x1 (ix1 b)).toNat, hids b⟩)⟩]
          concatenates_S8x128x25000_S8x128x2500_S8x128x27500_d2 := by
  unfold val_main_v9
  rw [shared_eq, lang_eq x0 x1 x4 hids]

theorem routing_eq (x0 : S8x128x512.Idx → EReal) (x8 : S5x512.Idx → EReal) (x9 : S5.Idx → EReal) :
    val_main_v34 (F := Ideal) x0 x8 x9 = routing x0 x8 x9 := rfl

open Idealize.SL.Sem Idealize.ShloMosaic.TcCoe in
/-- The reference's run with its seven results in closed form, when every language id is below six. -/
theorem run_closed (m : (ℓ : Loc nD τ sig) → Buf (Elt Ideal) ℓ) (ρ : Dev nD → PrngReg)
    (hids : ∀ (c : Dev nD) (b : Fin 8), (m ((c.tc : Thread nD τ).loc main_arg1) (ix1 b)).toNat < 6) :
    θ_run defs (onTc (τ := τ) (main (F := Ideal))) ⟨m, fun _ => 0, ρ⟩ fun r => ∀ c : Dev nD,
      r.2.mem ((c.tc : Thread nD τ).loc main_v0) = lin (m ((c.tc : Thread nD τ).loc main_arg0)) (m ((c.tc : Thread nD τ).loc main_arg3))
      ∧ r.2.mem ((c.tc : Thread nD τ).loc main_v8) = lang (m ((c.tc : Thread nD τ).loc main_arg0)) (m ((c.tc : Thread nD τ).loc main_arg4))
          (fun b => ⟨(m ((c.tc : Thread nD τ).loc main_arg1) (ix1 b)).toNat, hids c b⟩)
      ∧ r.2.mem ((c.tc : Thread nD τ).loc main_v9) = concatenate S8x128x27500 2
          [⟨S8x128x25000, lin (m ((c.tc : Thread nD τ).loc main_arg0)) (m ((c.tc : Thread nD τ).loc main_arg3))⟩,
           ⟨S8x128x2500, lang (m ((c.tc : Thread nD τ).loc main_arg0)) (m ((c.tc : Thread nD τ).loc main_arg4))
              (fun b => ⟨(m ((c.tc : Thread nD τ).loc main_arg1) (ix1 b)).toNat, hids c b⟩)⟩]
          concatenates_S8x128x25000_S8x128x2500_S8x128x27500_d2
      ∧ r.2.mem ((c.tc : Thread nD τ).loc main_v20) = maskedLin (m ((c.tc : Thread nD τ).loc main_arg0)) (m ((c.tc : Thread nD τ).loc main_arg5))
          (taskMask (m ((c.tc : Thread nD τ).loc main_arg2)) 1#32)
      ∧ r.2.mem ((c.tc : Thread nD τ).loc main_v23) = maskedLin (m ((c.tc : Thread nD τ).loc main_arg0)) (m ((c.tc : Thread nD τ).loc main_arg6))
          (taskMask (m ((c.tc : Thread nD τ).loc main_arg2)) 1#32)
      ∧ r.2.mem ((c.tc : Thread nD τ).loc main_v26) = maskedLin (m ((c.tc : Thread nD τ).loc main_arg0)) (m ((c.tc : Thread nD τ).loc main_arg7))
          (taskMask (m ((c.tc : Thread nD τ).loc main_arg2)) 2#32)
      ∧ r.2.mem ((c.tc : Thread nD τ).loc main_v34) = routing (m ((c.tc : Thread nD τ).loc main_arg0)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨(h c).1.trans ((val_main_v0_eq _ _).trans (shared_eq _ _)),
     (h c).2.1.trans ((val_main_v8_eq _ _ _).trans (lang_eq _ _ _ (hids c))),
     (h c).2.2.1.trans ((val_main_v9_eq _ _ _ _).trans (generation_eq _ _ _ _ (hids c))),
     (h c).2.2.2.1.trans ((val_main_v20_eq _ _ _).trans (diff_search_eq _ _ _)),
     (h c).2.2.2.2.1.trans ((val_main_v23_eq _ _ _).trans (diff_replace_eq _ _ _)),
     (h c).2.2.2.2.2.1.trans ((val_main_v26_eq _ _ _).trans (tool_commands_eq _ _ _)),
     (h c).2.2.2.2.2.2.1.trans ((val_main_v34_eq _ _ _).trans (routing_eq _ _ _)),
     (h c).2.2.2.2.2.2.2⟩)
    (Cert.ReferenceIdeal.Value.run (F := Ideal) m ρ)

end Cert.ReferenceIdeal.RefValue

end
-- ==== Proof.RefValueBridge.lean ====
import proofs.«420588_j52003464020428_2_alg».proof.Proof.Spec
import proofs.«420588_j52003464020428_2_alg».proof.Proof.RefValue
import Idealize.ShloMosaic.Lib.Pipeline.Value
import Idealize.ShloMosaic.PureOps.Ideal.Laws

noncomputable section

open scoped BigOperators

namespace Cert.ReferenceIdeal.RefValue

open Cert.ReferenceIdeal Idealize.ShloMosaic Idealize.ShloMosaic.ValueIdx

/-- The word 0x3F800000 is 1. -/
theorem one_f32 : Ideal.ofBits .f32 0x3F800000#32 = 1 := by
  simp [Ideal.ofBits, Ideal.ieee]
  first
  | (rw [← EReal.coe_mul]; norm_num)
  | (norm_cast; norm_num)

/-- Unfolding rows i = 128 · b + s back to (b, s): a row-major reshape moves no entry, and row i's mask is that of sample i / 128. -/
theorem unfold_G_lin (x : S8x128x512.Idx → EReal) (w : S25000x512.Idx → EReal) (msk : Cert.Spec.Sm.Idx → EReal)
    (mb : Fin 8 → EReal) (h1 : S8x128x512.ShapeCasts Cert.Spec.Sx) (h2 : Cert.Spec.So.ShapeCasts S8x128x25000)
    (hm : ∀ i : Fin 1024, msk (ix2 i (0 : Fin 1)) = mb ⟨i.val / 128, by omega⟩) :
    shapeCast S8x128x25000 (Cert.Spec.G_lin (shapeCast Cert.Spec.Sx x h1) w msk) h2 = maskedLin x w mb := by
  funext i
  obtain ⟨b, s, v, rfl⟩ : ∃ (b : Fin 8) (s : Fin 128) (v : Fin 25000), i = ix3 b s v := ⟨i 0, i 1, i 2, eq_ix3 i⟩
  rw [shapeCast_apply _ h2 (ix3 b s v) (ix2 (⟨b.val * 128 + s.val, by omega⟩ : Fin 1024) v) (by
    rw [Shape.rowMajor_val_two, Shape.rowMajor_val_three]; rfl)]
  rw [Cert.Spec.G_lin_apply, maskedLin_apply, hm]
  have hb : (⟨(⟨b.val * 128 + s.val, by omega⟩ : Fin 1024).val / 128, by omega⟩ : Fin 8) = b := Fin.ext (by
    show (b.val * 128 + s.val) / 128 = b.val
    omega)
  rw [hb]
  congr 1
  refine Finset.sum_congr rfl fun k _ => ?_
  rw [shapeCast_apply x h1 (ix2 (⟨b.val * 128 + s.val, by omega⟩ : Fin 1024) k) (ix3 b s k) (by
    rw [Shape.rowMajor_val_two, Shape.rowMajor_val_three]; rfl)]

theorem unfold_G_lin_ones (x : S8x128x512.Idx → EReal) (w : S25000x512.Idx → EReal) (msk : Cert.Spec.Sm.Idx → EReal)
    (h1 : S8x128x512.ShapeCasts Cert.Spec.Sx) (h2 : Cert.Spec.So.ShapeCasts S8x128x25000)
    (hm : ∀ j : Cert.Spec.Sm.Idx, msk j = Ideal.ofBits .f32 0x3F800000#32) :
    shapeCast S8x128x25000 (Cert.Spec.G_lin (shapeCast Cert.Spec.Sx x h1) w msk) h2 = lin x w := by
  rw [unfold_G_lin x w msk (fun _ => 1) h1 h2 (fun i => (hm _).trans one_f32)]
  funext i
  show lin x w i * 1 = lin x w i
  rw [mul_one]

theorem unfold_G_lin_task (x : S8x128x512.Idx → EReal) (w : S25000x512.Idx → EReal) (msk : Cert.Spec.Sm.Idx → EReal)
    (t : S8.Idx → BitVec 32) (c : BitVec 32)
    (h1 : S8x128x512.ShapeCasts Cert.Spec.Sx) (h2 : Cert.Spec.So.ShapeCasts S8x128x25000)
    (hm : ∀ i : Fin 1024, msk (ix2 i (0 : Fin 1))
      = FloatOps.uitofp (F := Ideal) .f32 (IntOp.cmpi .eq (t (ix1 (⟨i.val / 128, by omega⟩ : Fin 8))) c)) :
    shapeCast S8x128x25000 (Cert.Spec.G_lin (shapeCast Cert.Spec.Sx x h1) w msk) h2 = maskedLin x w (taskMask t c) :=
  unfold_G_lin x w msk (taskMask t c) h1 h2 hm

theorem G_lang_eq (x : S8x128x512.Idx → EReal) (W : S6x2500x512.Idx → EReal) (ids : Fin 8 → Fin 6) :
    Cert.Spec.G_lang x W ids = lang x W ids := rfl

end Cert.ReferenceIdeal.RefValue

end
-- ==== Proof.lean ====
/-
  Each of the four big heads is one contraction: entry (b, s, v) is the sum over the hidden axis of x[b, s, ·] · W[v, ·],
  times the 0/1 mask of sample b's task (all ones for the shared head). The kernel indexes rows by i = 128 · b + s and
  takes the columns in blocks of 1280; re-indexing a row-major array moves no entry, so both sides are the same sum.
  The language head contracts sample b with the slab its language id selects; with every id in [0, 6) that is the same
  slab on both sides. The merged logits concatenate two equal pieces, and the routing head is one chain of operations
  applied by both programs to the same arrays.
-/
import proofs.«420588_j52003464020428_2_alg».proof.Defs
import proofs.«420588_j52003464020428_2_alg».proof.Proof.Gen.Kernel
import proofs.«420588_j52003464020428_2_alg».proof.Proof.Gen.KernelIdeal
import proofs.«420588_j52003464020428_2_alg».proof.Proof.Gen.ReferenceIdeal
import proofs.«420588_j52003464020428_2_alg».proof.Proof.Gen.Pre_finite_inputs
import proofs.«420588_j52003464020428_2_alg».proof.Proof.KI.Ids
import proofs.«420588_j52003464020428_2_alg».proof.Proof.KI.Outs
import proofs.«420588_j52003464020428_2_alg».proof.Proof.KI.Tail
import proofs.«420588_j52003464020428_2_alg».proof.Proof.KI.TailIn
import proofs.«420588_j52003464020428_2_alg».proof.Proof.KB.FrameAll
import proofs.«420588_j52003464020428_2_alg».proof.Proof.KI.RunValues
import proofs.«420588_j52003464020428_2_alg».proof.Proof.KI.Values
import proofs.«420588_j52003464020428_2_alg».proof.Proof.RefValueBridge
import Idealize.ShloMosaic.Adequacy
import Idealize.ShloMosaic.Init

noncomputable section

namespace Cert.Proof

open Idealize.ShloMosaic Idealize.ShloMosaic.TcCoe Idealize.ShloMosaic.ValueIdx Idealize.SL.Sem
open Cert.KernelIdeal Cert.KernelIdeal.Gen Cert.KernelIdeal.Hand
open Cert.ReferenceIdeal.RefValue (lin lang maskedLin taskMask routing run_closed unfold_G_lin_ones unfold_G_lin_task G_lang_eq)

section Results

variable (m : (ℓ : Loc nD τ sig) → Buf (Elt Ideal) ℓ) (hok : ok4 (F := Ideal) (tbl m)) (c : Dev nD)

abbrev idsOf (hl : ∀ b : Fin 8, (m ((c.tc : Thread nD τ).loc main_arg1) (ix1 b)).toNat < 6) : Fin 8 → Fin 6 :=
  fun b => ⟨(m ((c.tc : Thread nD τ).loc main_arg1) (ix1 b)).toNat, hl b⟩

theorem concat_congr (a a' : Cert.ReferenceIdeal.S8x128x25000.Idx → EReal) (b b' : Cert.ReferenceIdeal.S8x128x2500.Idx → EReal)
    (ha : a = a') (hb : b = b') :
    concatenate S8x128x27500 2 [⟨S8x128x25000, a⟩, ⟨S8x128x2500, b⟩] concatenates_S8x128x25000_S8x128x2500_S8x128x27500_d2
      = concatenate Cert.ReferenceIdeal.S8x128x27500 2 [⟨Cert.ReferenceIdeal.S8x128x25000, a'⟩, ⟨Cert.ReferenceIdeal.S8x128x2500, b'⟩]
          Cert.ReferenceIdeal.Gen.concatenates_S8x128x25000_S8x128x2500_S8x128x27500_d2 := by
  subst ha; subst hb; rfl

theorem res18 : (V11 m (outsOf m hok) c main_v18 : S8x128x25000.Idx → EReal)
    = lin (m ((c.tc : Thread nD τ).loc main_arg0)) (m ((c.tc : Thread nD τ).loc main_arg3)) :=
  (value_v18 m hok c).trans (unfold_G_lin_ones _ _ _ _ _ (fun j => by rw [rowsOf_apply]; rfl))

theorem res20 : (V11 m (outsOf m hok) c main_v20 : S8x128x25000.Idx → EReal)
    = maskedLin (m ((c.tc : Thread nD τ).loc main_arg0)) (m ((c.tc : Thread nD τ).loc main_arg5)) (taskMask (m ((c.tc : Thread nD τ).loc main_arg2)) 1#32) :=
  (value_v20 m hok c).trans (unfold_G_lin_task _ _ _ _ _ _ _ (fun i => by rw [rowsOf_apply]; rfl))

theorem res22 : (V11 m (outsOf m hok) c main_v22 : S8x128x25000.Idx → EReal)
    = maskedLin (m ((c.tc : Thread nD τ).loc main_arg0)) (m ((c.tc : Thread nD τ).loc main_arg6)) (taskMask (m ((c.tc : Thread nD τ).loc main_arg2)) 1#32) :=
  (value_v22 m hok c).trans (unfold_G_lin_task _ _ _ _ _ _ _ (fun i => by rw [rowsOf_apply]; rfl))

theorem res24 : (V11 m (outsOf m hok) c main_v24 : S8x128x25000.Idx → EReal)
    = maskedLin (m ((c.tc : Thread nD τ).loc main_arg0)) (m ((c.tc : Thread nD τ).loc main_arg7)) (taskMask (m ((c.tc : Thread nD τ).loc main_arg2)) 2#32) :=
  (value_v24 m hok c).trans (unfold_G_lin_task _ _ _ _ _ _ _ (fun i => by rw [rowsOf_apply]; rfl))

theorem res25 (hl : ∀ b : Fin 8, (m ((c.tc : Thread nD τ).loc main_arg1) (ix1 b)).toNat < 6) :
    (V11 m (outsOf m hok) c main_v25 : S8x128x2500.Idx → EReal)
    = lang (m ((c.tc : Thread nD τ).loc main_arg0)) (m ((c.tc : Thread nD τ).loc main_arg4)) (idsOf m c hl) :=
  (value_v25 m hok c hl).trans (G_lang_eq _ _ _)

theorem res26 (hl : ∀ b : Fin 8, (m ((c.tc : Thread nD τ).loc main_arg1) (ix1 b)).toNat < 6) :
    (V11 m (outsOf m hok) c main_v26 : S8x128x27500.Idx → EReal)
    = concatenate Cert.ReferenceIdeal.S8x128x27500 2
        [⟨Cert.ReferenceIdeal.S8x128x25000, lin (m ((c.tc : Thread nD τ).loc main_arg0)) (m ((c.tc : Thread nD τ).loc main_arg3))⟩,
         ⟨Cert.ReferenceIdeal.S8x128x2500, lang (m ((c.tc : Thread nD τ).loc main_arg0)) (m ((c.tc : Thread nD τ).loc main_arg4)) (idsOf m c hl)⟩]
        Cert.ReferenceIdeal.Gen.concatenates_S8x128x25000_S8x128x2500_S8x128x27500_d2 :=
  (value_v26 m hok c hl).trans (concat_congr _ _ _ _
    (unfold_G_lin_ones _ _ _ _ _ (fun j => by rw [rowsOf_apply]; rfl)) (G_lang_eq _ _ _))

theorem res34 : (V11 m (outsOf m hok) c main_v34 : S8x5.Idx → EReal)
    = routing (m ((c.tc : Thread nD τ).loc main_arg0)) (m ((c.tc : Thread nD τ).loc main_arg8)) (m ((c.tc : Thread nD τ).loc main_arg9)) :=
  (value_v34 m hok c).trans rfl

end Results

theorem frame_k : Cert.frame_Kernel := fun m ρ h => Cert.Kernel.Hand.frame_all m ρ h

theorem frame_ki : Cert.frame_KernelIdeal := fun m ρ h =>
  (θ_run Cert.KernelIdeal.defs _ _).mono (fun _ h c => (h c).2.2.2.2.2.2.2) (run_values m ρ h)

theorem frame_ri : Cert.frame_ReferenceIdeal := fun m ρ _ =>
  (θ_run Cert.ReferenceIdeal.defs _ _).mono (fun _ h c => (h c).2.2.2.2.2.2.2) (Cert.ReferenceIdeal.Value.run (F := Ideal) m ρ)

theorem algebraic : Cert.algebraic_KernelIdeal_ReferenceIdeal := by
  intro m ρ m' ρ' hpre hagree
  have hok : ok4 (F := Ideal) (tbl m) := ok4_of_pre m hpre
  have hlt : ∀ (c : Dev nD) (b : Fin 8), (m ((c.tc : Thread nD τ).loc main_arg1) (ix1 b)).toNat < 6 := fun c b => by
    obtain rfl : c = 0 := Subsingleton.elim _ _
    exact ids_lt m hpre (ix1 b)
  have hids : ∀ (c : Dev Cert.ReferenceIdeal.nD) (b : Fin 8),
      (m' ((c.tc : Thread Cert.ReferenceIdeal.nD Cert.ReferenceIdeal.τ).loc Cert.ReferenceIdeal.main_arg1) (ix1 b)).toNat < 6 := fun c b => by
    rw [(hagree c).2.1]; exact hlt c _
  refine ⟨fun c => V11 m (outsOf m hok) c main_v18, fun c => V11 m (outsOf m hok) c main_v25, fun c => V11 m (outsOf m hok) c main_v26,
    fun c => V11 m (outsOf m hok) c main_v20, fun c => V11 m (outsOf m hok) c main_v22, fun c => V11 m (outsOf m hok) c main_v24,
    fun c => V11 m (outsOf m hok) c main_v34, run_values m ρ hpre, ?_⟩
  refine (θ_run Cert.ReferenceIdeal.defs _ _).mono (fun _ h c => ?_) (run_closed m' ρ' hids)
  obtain ⟨a0, a1, a2, a3, a4, a5, a6, a7, a8, a9⟩ := hagree c
  obtain ⟨r0, r1, r2, r3, r4, r5, r6, rest⟩ := h c
  have e : (fun b : Fin 8 => (⟨(m' ((c.tc : Thread Cert.ReferenceIdeal.nD Cert.ReferenceIdeal.τ).loc Cert.ReferenceIdeal.main_arg1) (ix1 b)).toNat, hids c b⟩ : Fin 6))
      = idsOf m c (hlt c) := funext fun b => Fin.ext (by
    show (m' ((c.tc : Thread Cert.ReferenceIdeal.nD Cert.ReferenceIdeal.τ).loc Cert.ReferenceIdeal.main_arg1) (ix1 b)).toNat = (m ((c.tc : Thread nD τ).loc main_arg1) (ix1 b)).toNat
    rw [a1])
  refine ⟨r0.trans ?_, r1.trans ?_, r2.trans ?_, r3.trans ?_, r4.trans ?_, r5.trans ?_, r6.trans ?_, rest⟩
  · rw [a0, a3]; exact (res18 m hok c).symm
  · rw [e, a0, a4]; exact (res25 m hok c (hlt c)).symm
  · rw [e, a0, a3, a4]; exact (res26 m hok c (hlt c)).symm
  · rw [a0, a2, a5]; exact (res20 m hok c).symm
  · rw [a0, a2, a6]; exact (res22 m hok c).symm
  · rw [a0, a2, a7]; exact (res24 m hok c).symm
  · rw [a0, a8, a9]; exact (res34 m hok c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
